-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x2048 .f32 .bf16
  ∧ IdealRules.truncf_extf.Statement Cert.KernelIdeal.S2048x256 .f32 .bf16
  ∧ IdealRules.truncf_extf.Statement Cert.KernelIdeal.S1024x256 .f32 .bf16
  ∧ IdealRules.truncf_extf.Statement Cert.KernelIdeal.S256x256 .f32 .bf16
  ∧ IdealRules.truncf_extf.Statement Cert.KernelIdeal.S1024x256 .f32 .bf16
  ∧ IdealRules.truncf_extf.Statement Cert.KernelIdeal.S256x128 .f32 .bf16
  ∧ IdealRules.truncf_extf.Statement Cert.KernelIdeal.S1024x2048 .f32 .bf16
  ∧ IdealRules.truncf_extf.Statement Cert.KernelIdeal.S2048x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000 : Shape := ⟨1, ![320000]⟩
abbrev S256x256 : Shape := ⟨2, ![256, 256]⟩
abbrev S256x128 : Shape := ⟨2, ![256, 128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg1 : IVec S320000 32) (main_arg2 : IVec S320000 32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_c_6 : IVec S_ 32 := constantI S_ 32 0#32
  let main_v19 : IVec S320000 32 := broadcastInDim S320000 ![] bcast_S_S320000 main_c_6
  let main_v20 : IVec S320000 1 := cmpi .sge main_arg1 main_v19
  let main_c_7 : IVec S_ 32 := constantI S_ 32 10000#32
  let main_v21 : IVec S320000 32 := broadcastInDim S320000 ![] bcast_S_S320000 main_c_7
  let main_v22 : IVec S320000 1 := cmpi .slt main_arg1 main_v21
  let main_v23 : IVec S320000 1 := andi main_v20 main_v22
  let main_c_8 : IVec S_ 1 := constantI S_ 1 1#1
  let main_v24 : IVec S_ 1 := (fun x v => Host.reduce IntOp.andi x v reducesTo_S320000_S_d0 h_S_) main_v23 main_c_8
  let main_v25 : IVec S_ 1 := andi main_v18 main_v24
  let main_c_9 : IVec S_ 32 := constantI S_ 32 0#32
  let main_v26 : IVec S320000 32 := broadcastInDim S320000 ![] bcast_S_S320000 main_c_9
  let main_v27 : IVec S320000 1 := cmpi .sge main_arg2 main_v26
  let main_c_10 : IVec S_ 32 := constantI S_ 32 10000#32
  let main_v28 : IVec S320000 32 := broadcastInDim S320000 ![] bcast_S_S320000 main_c_10
  let main_v29 : IVec S320000 1 := cmpi .slt main_arg2 main_v28
  let main_v30 : IVec S320000 1 := andi main_v27 main_v29
  let main_c_11 : IVec S_ 1 := constantI S_ 1 1#1
  let main_v31 : IVec S_ 1 := (fun x v => Host.reduce IntOp.andi x v reducesTo_S320000_S_d0 h_S_) main_v30 main_c_11
  let main_v32 : IVec S_ 1 := andi main_v25 main_v31
  main_v32

def fn {F : FTy → Type} [FloatOps F] (main_arg0 : FVec F S10000x256 .f32) (main_arg1 : IVec S320000 32) (main_arg2 : IVec S320000 32) (main_arg3 : FVec F S320000 .f32) (main_arg4 : FVec F S256x256 .f32) (main_arg5 : FVec F S256x128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg2 main_v13 main_v16
-- ==== Kernel.lean ====
abbrev S10000x256 : Shape := ⟨2, ![10000, 256]⟩
abbrev S320000 : Shape := ⟨1, ![320000]⟩
abbrev S256x256 : Shape := ⟨2, ![256, 256]⟩
abbrev S256x128 : Shape := ⟨2, ![256, 128]⟩
abbrev S_ : Shape := ⟨0, ![]⟩
abbrev S10240x10240 : Shape := ⟨2, ![10240, 10240]⟩
abbrev S320000x1 : Shape := ⟨2, ![320000, 1]⟩
abbrev S320000x2 : Shape := ⟨2, ![320000, 2]⟩
abbrev S10240x256 : Shape := ⟨2, ![10240, 256]⟩
abbrev S1 : Shape := ⟨1, ![1]⟩
abbrev S10240x128 : Shape := ⟨2, ![10240, 128]⟩
abbrev S10000x128 : Shape := ⟨2, ![10000, 128]⟩
abbrev S1024x2048 : Shape := ⟨2, ![1024, 2048]⟩
abbrev S1024x256 : Shape := ⟨2, ![1024, 256]⟩
abbrev S2048x256 : Shape := ⟨2, ![2048, 256]⟩
abbrev S1024x128 : Shape := ⟨2, ![1024, 128]⟩
abbrev S2048x128 : Shape := ⟨2, ![2048, 128]⟩

abbrev nBuf : Space → Nat
  | .hbm => 35
  | .vmem => 18
  | .smem => 0
  | _ => 0

abbrev bufTy : (tb : Table) → Fin (tcTables nBuf tb) → BufTy
  | .hbm, ⟨0, _⟩ => ⟨S10000x256, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S256x256, .f32⟩
  | .hbm, ⟨5, _⟩ => ⟨S256x128, .f32⟩
  | .hbm, ⟨6, _⟩ => ⟨S_, .f32⟩
  | .hbm, ⟨7, _⟩ => ⟨S10240x10240, .f32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x1, .i32⟩
  | .hbm, ⟨24, _⟩ => ⟨S320000x2, .i32⟩
  | .hbm, ⟨25, _⟩ => ⟨S10240x10240, .f32⟩
  | .hbm, ⟨26, _⟩ => ⟨S_, .f32⟩
  | .hbm, ⟨27, _⟩ => ⟨S10240x256, .f32⟩
  | .hbm, ⟨28, _⟩ => ⟨S_, .i32⟩
  | .hbm, ⟨29, _⟩ => ⟨S1, .i32⟩
  | .hbm, ⟨30, _⟩ => ⟨S10240x256, .f32⟩
  | .hbm, ⟨31, _⟩ => ⟨S10240x256, .f32⟩
  | .hbm, ⟨32, _⟩ => ⟨S10240x128, .f32⟩
  | .hbm, ⟨33, _⟩ => ⟨S10240x128, .f32⟩
  | .hbm, ⟨34, _⟩ => ⟨S10000x128, .f32⟩
  | .local _ .vmem, ⟨0, _⟩ => ⟨S1024x2048, .f32⟩
  | .local _ .vmem, ⟨1, _⟩ => ⟨S1024x2048, .f32⟩
  | .local _ .vmem, ⟨2, _⟩ => ⟨S10240x256, .f32⟩
  | .local _ .vmem, ⟨3, _⟩ => ⟨S256x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S256x128, .f32⟩
  | .local _ .vmem, ⟨10, _⟩ => ⟨S1024x128, .f32⟩
  | .local _ .vmem, ⟨11, _⟩ => ⟨S1024x128, .f32⟩
  | .local _ .vmem, ⟨12, _⟩ => ⟨S1024x2048, .f32⟩
  | .local _ .vmem, ⟨13, _⟩ => ⟨S1024x2048, .f32⟩
  | .local _ .vmem, ⟨14, _⟩ => ⟨S10240x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_c_0 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_v6 : Ref sig .tc := ⟨.hbm, 16, rfl⟩
abbrev main_call0_v7 : Ref sig .tc := ⟨.hbm, 17, rfl⟩
abbrev main_call0_c_2 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst_3 : Ref sig .tc := ⟨.hbm, 26, rfl⟩
abbrev main_call0_v15 : Ref sig .tc := ⟨.hbm, 27, rfl⟩
abbrev main_call0_c_4 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_v0 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![10, 5], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c4_i32 : BitVec 32 := 4#32
  let v28 : BitVec 1 := Scalar.cmpi .eq arg1 c4_i32
  let v29 : BitVec 32 := Scalar.extui v28
  let c0_i32_9 : BitVec 32 := 0#32
  let v30 : BitVec 1 := Scalar.cmpi .ne v29 c0_i32_9
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![10, 5], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c4_i32 : BitVec 32 := 4#32
  let v28 : BitVec 1 := Scalar.cmpi .eq arg1 c4_i32
  let v29 : BitVec 32 := Scalar.extui v28
  let c0_i32_9 : BitVec 32 := 0#32
  let v30 : BitVec 1 := Scalar.cmpi .ne v29 c0_i32_9
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10240x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bcast_S_S10240x10240 : S_.BroadcastsInDim S10240x10240 (![] : Fin 0 → Fin S10240x10240.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  bcast_S_S10240x256 : S_.BroadcastsInDim S10240x256 (![] : Fin 0 → Fin S10240x256.rank)
  bcast_S_S1 : S_.BroadcastsInDim S1 (![] : Fin 0 → Fin S1.rank)
  slices_S10240x128_S10000x128_0_0 : S10240x128.Slices ![0, 0] S10000x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S2048x256 : 0 < S2048x256.numel
  shapeCasts_S2048x256_S2048x256 : S2048x256.ShapeCasts S2048x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S2048x128 : 0 < S2048x128.numel
  shapeCasts_S2048x128_S2048x128 : S2048x128.ShapeCasts S2048x128
  scatter_S10240x10240_S320000x2_S320000_n_01_01_1_wf : ScatterDims.WF S10240x10240 S320000x2 S320000 [] [0, 1] [0, 1] 1
  scatter_S10240x256_S1_S10000x256_01_n_0_0_wf : ScatterDims.WF S10240x256 S1 S10000x256 [0, 1] [] [0] 0
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S1024x2048_S2048x128_S1024x128_1_0_0_1_n_n_wf : DotDims.WF S1024x2048 S2048x128 S1024x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S10240x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S10240x10240.size a
  hwx0_0 : ∀ i : grid0.Coords, EltTy.bits .f32 = 32 ∨ (Rect.block (s := S10240x10240) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x256.size a ≤ S10240x256.size a
  hwx0_1 : ∀ i : grid0.Coords, EltTy.bits .f32 = 32 ∨ (Rect.block (s := S10240x256) S10240x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S10240x256.size a
  hwx0_3 : ∀ i : grid0.Coords, EltTy.bits .f32 = 32 ∨ (Rect.block (s := S10240x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S10240x256.size a
  hwx1_0 : ∀ i : grid1.Coords, EltTy.bits .f32 = 32 ∨ (Rect.block (s := S10240x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S10240x128.size a
  hwx1_2 : ∀ i : grid1.Coords, EltTy.bits .f32 = 32 ∨ (Rect.block (s := S10240x128) S1024x128.size (cc1_transform_2 i) (hinb1_2 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x128.size a ≤ S10240x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S10240x10240.size a
  hwx2_0 : ∀ i : grid2.Coords, EltTy.bits .f32 = 32 ∨ (Rect.block (s := S10240x10240) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x128.size a ≤ S10240x128.size a
  hwx2_1 : ∀ i : grid2.Coords, EltTy.bits .f32 = 32 ∨ (Rect.block (s := S10240x128) S10240x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S10240x128.size a
  hwx2_2 : ∀ i : grid2.Coords, EltTy.bits .f32 = 32 ∨ (Rect.block (s := S10240x128) S1024x128.size (cc2_transform_2 i) (hinb2_2 i)).WholeWords (EltTy.packing .f32)

variable [Facts₀]

def scatter_S10240x10240_S320000x2_S320000_n_01_01_1 : ScatterDims S10240x10240 S320000x2 S320000 where
  updateWindowDims := []
  insertedWindowDims := [0, 1]
  scatterDimsToOperandDims := [0, 1]
  indexVectorDim := 1
  wf := scatter_S10240x10240_S320000x2_S320000_n_01_01_1_wf
def scatter_S10240x256_S1_S10000x256_01_n_0_0 : ScatterDims S10240x256 S1 S10000x256 where
  updateWindowDims := [0, 1]
  insertedWindowDims := []
  scatterDimsToOperandDims := [0]
  indexVectorDim := 0
  wf := scatter_S10240x256_S1_S10000x256_01_n_0_0_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_call0_v14) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v17) S10240x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v18) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_call0_v18) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v19) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v14) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v19) S10240x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v20) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S10000x256 : Shape := ⟨2, ![10000, 256]⟩
abbrev S320000 : Shape := ⟨1, ![320000]⟩
abbrev S256x256 : Shape := ⟨2, ![256, 256]⟩
abbrev S256x128 : Shape := ⟨2, ![256, 128]⟩
abbrev S320000x1 : Shape := ⟨2, ![320000, 1]⟩
abbrev S_ : Shape := ⟨0, ![]⟩
abbrev S320000x256 : Shape := ⟨2, ![320000, 256]⟩
abbrev S10000x128 : Shape := ⟨2, ![10000, 128]⟩

abbrev nBuf : Space → Nat
  | .hbm => 43
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S256x256, .f32⟩
  | .hbm, ⟨5, _⟩ => ⟨S256x128, .f32⟩
  | .hbm, ⟨6, _⟩ => ⟨S320000x1, .f32⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S320000x1, .i32⟩
  | .hbm, ⟨15, _⟩ => ⟨S320000x256, .f32⟩
  | .hbm, ⟨16, _⟩ => ⟨S320000x256, .f32⟩
  | .hbm, ⟨17, _⟩ => ⟨S320000x256, .f32⟩
  | .hbm, ⟨18, _⟩ => ⟨S_, .f32⟩
  | .hbm, ⟨19, _⟩ => ⟨S10000x256, .f32⟩
  | .hbm, ⟨20, _⟩ => ⟨S320000x1, .i32⟩
  | .hbm, ⟨21, _⟩ => ⟨S10000x256, .f32⟩
  | .hbm, ⟨22, _⟩ => ⟨S10000x256, .f32⟩
  | .hbm, ⟨23, _⟩ => ⟨S_, .f32⟩
  | .hbm, ⟨24, _⟩ => ⟨S10000x256, .f32⟩
  | .hbm, ⟨25, _⟩ => ⟨S10000x256, .f32⟩
  | .hbm, ⟨26, _⟩ => ⟨S320000x1, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000x256, .f32⟩
  | .hbm, ⟨36, _⟩ => ⟨S320000x256, .f32⟩
  | .hbm, ⟨37, _⟩ => ⟨S320000x256, .f32⟩
  | .hbm, ⟨38, _⟩ => ⟨S_, .f32⟩
  | .hbm, ⟨39, _⟩ => ⟨S10000x256, .f32⟩
  | .hbm, ⟨40, _⟩ => ⟨S320000x1, .i32⟩
  | .hbm, ⟨41, _⟩ => ⟨S10000x256, .f32⟩
  | .hbm, ⟨42, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []
  dot_S10000x256_S256x128_S10000x128_1_0_0_1_n_n_wf : DotDims.WF S10000x256 S256x128 S10000x128 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.RefImports.lean ====
import proofs.«421758_j64261300683140_3_alg».proof.Proof.Gen.ReferenceIdeal.Run
import proofs.«421758_j64261300683140_3_alg».proof.Proof.Gen.ReferenceIdeal.Read
-- ==== Proof.KR0.lean ====
import proofs.«421758_j64261300683140_3_alg».proof.Proof.Gen.Kernel.Launch
import proofs.«421758_j64261300683140_3_alg».proof.Proof.Gen.Kernel.Skeleton
import proofs.«421758_j64261300683140_3_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def xslice0 (c : Dev nD) (t : Fin cfg0.N) : Vec F S2048x256 .f32 :=
  View.ld (Val := Elt F) (S := S10240x256) (e' := .f32) (iblk0 V c 1 t) (Rect.unit (s := S10240x256) (k0_off1 (grid0.coords t)) S2048x256.size (k0_off1_inb (grid0.coords t)))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 5 = 0 := by decide +kernel
theorem hcond0_1 : ∀ t : Fin cfg0.N, k0_cond2 (grid0.coords t) = 1#1 ↔ t.val % 5 = 4 := by decide +kernel
theorem idle0_3 : ∀ t : Fin cfg0.N, idle0 3 (grid0.coords t) = true ↔ ¬t.val % 5 = 4 := by decide +kernel

theorem hz0 : (![0, 0] : Fin 2 → Nat) = fun _ => 0 := funext fun a => by fin_cases a <;> rfl

-- The newest piece covers every index, so the read returns its payload whatever the older pieces are.
theorem read_top0 {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid0.Coords) (arg2 : Memref sig .tc .vmem S1024x2048 .f32) (harg2 : arg2.IsWhole) (arg3 : Memref sig .tc .vmem S10240x256 .f32) (harg3 : arg3.IsWhole) (arg4 : Memref sig .tc .vmem S256x256 .f32) (harg4 : arg4.IsWhole) (arg5 : Memref sig .tc .vmem S1024x256 .f32) (harg5 : arg5.IsWhole) (arg6 : Memref sig .tc .vmem S1024x256 .f32) (harg6 : arg6.IsWhole) (x0 : Vec F S1024x2048 .f32) (x1 : Vec F S10240x256 .f32) (x2 : Vec F S256x256 .f32) (a d5 : Vec F S1024x256 .f32)

-- One step of the blocked product: the block product added to zero at a row block's first column block, to the running sum `a` elsewhere.
def pay0 : Vec F S1024x256 .f32 :=
  k0_pay2 (View.ld x1 (Rect.unit (s := S10240x256) (k0_off1 i) S2048x256.size (k0_off1_inb i))) (if cond0_0 i then k0_pay1 else a) x0

theorem kernelRun0 (hx : ¬(cond0_0 i ∧ k0_cond2 i = 1#1)) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg6 fullShare a
        ∗ (iprop(owns (c : Thread nD τ) arg2 fullShare x0 ∗ owns (c : Thread nD τ) arg3 fullShare x1 ∗ owns (c : Thread nD τ) arg4 fullShare x2 ∗ owns (c : Thread nD τ) arg5 fullShare (if k0_cond2 i = 1#1 then k0_pay3 (pay0 i x0 x1 a) x2 else d5) ∗ owns (c : Thread nD τ) arg6 fullShare (pay0 i x0 x1 a)) -∗ K ⟨⟩))
      ⊢ wp frame (wpE (defs₀ (F := F)) Variants.none c none) E (cc0__spmm_gemm_relu_kernel i arg2 harg2 arg3 harg3 arg4 harg4 arg5 harg5 arg6 harg6) K := by
  simp only [cc0__spmm_gemm_relu_kernel_eq_skeleton]; unfold cc0__spmm_gemm_relu_kernel_skel owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg6.eq_unread hfs0
  by_cases hc0 : cond0_0 i <;> by_cases hc1 : k0_cond2 i = 1#1
  · exact absurd ⟨hc0, hc1⟩ hx
  all_goals
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3] <;> (iexists _; isplitr; swap; · first | iexact H3 | iexact HS0) <;> ipureintro <;>
      first
      | rw [if_neg hc1]; exact hf3
      | (try rw [if_pos hc1]); sl_unfold_run_names; rw [read_top0 _ _ hz0]; unfold pay0; (first | rw [if_pos hc0] | rw [if_neg hc0])
        simp only [View.readCov_unit_zero (S := S1024x256) _ hz0, View.readAt_eq_ld, harg2.read_unread, harg3.read_unread, harg4.read_unread, harg6.read_unread, View.ld_unit_zero (S := S1024x2048) hz0, View.ld_unit_zero (S := S1024x256) hz0, View.ld_unit_zero (S := S256x256) hz0]

end

abbrev scM0 : Memref sig .tc .vmem S1024x256 .f32 := Memref.whole cc0_scratch0

def Phi0 (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

theorem PhiA0_eq (c : Dev nD) : (Pipeline.ΦA spec0 c : sProp 𝕄) = Phi0 (F := F) c iprop(∃ d, owns (c : Thread nD τ) scM0 fullShare d) := by
  unfold Pipeline.ΦA Phi0
  rw [Pipeline.scopedRest_split_of_list spec0 c [cc0_scratch0] (by decide) (by decide)]
  simp only [scM0, owns_whole]; rfl

theorem Phi0_mono (c : Dev nD) {P Q : sProp 𝕄} (h : P ⊢ Q) : Phi0 (F := F) c P ⊢ Phi0 c Q := by
  unfold Phi0
  iintro ⟨⟨HP, HR⟩, Hg⟩
  isplitl [HP HR]
  · isplitl [HP]; · iapply h; iexact HP
    iexact HR
  iexact Hg

-- The running sums of the blocked product, by recursion on the position.
def acc0 (c : Dev nD) : (n : ℕ) → n < cfg0.N → Vec F S1024x256 .f32
  | 0, hn => pay0 (grid0.coords ⟨0, hn⟩) (iblk0 V c 0 ⟨0, hn⟩) (iblk0 V c 1 ⟨0, hn⟩) k0_pay1
  | n + 1, hn => pay0 (grid0.coords ⟨n + 1, hn⟩) (iblk0 V c 0 ⟨n + 1, hn⟩) (iblk0 V c 1 ⟨n + 1, hn⟩) (acc0 c n (Nat.lt_of_succ_lt hn))

def outsAt0 (c : Dev nD) (n : ℕ) (h : n < cfg0.N) : Vec F S1024x256 .f32 × Vec F S1024x256 .f32 :=
  (k0_pay3 (acc0 V c n h) (iblk0 V c 2 ⟨n, h⟩), acc0 V c n h)

theorem acc0_eq (c : Dev nD) (t : Fin cfg0.N) (a : Vec F S1024x256 .f32) (ha : ∀ m (e : t.val = m + 1), a = acc0 V c m (by omega)) :
    pay0 (grid0.coords t) (iblk0 V c 0 t) (iblk0 V c 1 t) a = acc0 V c t.val t.isLt := by
  obtain ⟨n, hn⟩ := t
  cases n with
  | zero => unfold acc0 pay0; rw [if_pos ((hcond0_0 _).mpr rfl), ite_self]
  | succ m => rw [ha m rfl]; rfl

-- Before position `n` the running sum is that of position `n - 1`, if there is one.
def accAt0 (c : Dev nD) (n : ℕ) (h : n ≤ cfg0.N) : sProp 𝕄 :=
  iprop(∃ a, ⌜∀ m (e : n = m + 1), a = acc0 V c m (by omega)⌝ ∗ owns (c : Thread nD τ) scM0 fullShare a)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := Phi0 c (accAt0 V c t.val (Nat.le_of_lt_succ t.isLt))
  q _ := fullShare
  owed _ := 0

theorem A_eq0 (c : Dev nD) (w : Fin cfg0.W) : (dat0 V c).A w = V c (Pipeline.arrRef spec0 w) := rfl

theorem after0_out (c : Dev nD) (t : Fin cfg0.N) : (dat0 V c).after 3 t = (outsAt0 V c t.val t.isLt).1 := rfl

theorem before0_0 (c : Dev nD) (t : Fin cfg0.N) (d) : (dat0 V c).before 0 t d = iblk0 V c 0 t :=
  (Dat.before_in_eq_fetched (dat0 V c) 0 rfl (fun _ => rfl) (fun _ _ _ => rfl) (fun _ => rfl) t d).trans rfl
theorem before0_1 (c : Dev nD) (t : Fin cfg0.N) (d) : (dat0 V c).before 1 t d = iblk0 V c 1 t :=
  (Dat.before_in_eq_fetched (dat0 V c) 1 rfl (fun _ => rfl) (fun _ _ _ => rfl) (fun _ => rfl) t d).trans rfl
theorem before0_2 (c : Dev nD) (t : Fin cfg0.N) (d) : (dat0 V c).before 2 t d = iblk0 V c 2 t :=
  (Dat.before_in_eq_fetched (dat0 V c) 2 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1, before0_2]
  have hx : ¬(cond0_0 (grid0.coords t) ∧ k0_cond2 (grid0.coords t) = 1#1) := fun h => by
    have := (hcond0_0 t).mp h.1; have := (hcond0_1 t).mp h.2; omega
  show iprop(Phi0 c (accAt0 V c t.val _) ∗ _) ⊢ wp frame _ _ (bodyAt0 t) fun _ => iprop(Phi0 c (accAt0 V c (t.val + 1) _) ∗ _)
  unfold Phi0 accAt0
  iintro ⟨⟨⟨⟨%a, %ha, HS⟩, HR⟩, Hg⟩, Ho, ⟨%d0, H0⟩, ⟨%d1, H1⟩, ⟨%d2, H2⟩, ⟨%d3, H3⟩⟩
  iapply (kernelRun0 c _ _ _ _ _ _ _ _ _ _ _ (iblk0 V c 0 t) (iblk0 V c 1 t) (iblk0 V c 2 t) a _ hx Set.univ _)
  isplitl [H0]; · iexact H0
  isplitl [H1]; · iexact H1
  isplitl [H2]; · iexact H2
  isplitl [H3]; · iexact H3
  isplitl [HS]; · iexact HS
  rw [acc0_eq V c t a ha]
  iintro ⟨H0, H1, H2, H3, HS⟩
  isplitl [HS HR Hg]
  · isplitl [HS HR]
    · isplitl [HS]
      · iexists _; isplitr; swap; · iexact HS
        ipureintro; intro m e; cases e; rfl
      iexact HR
    iexact Hg
  isplitl [Ho]; · iexact Ho
  isplitl [H0]; · iexact H0
  isplitl [H1]; · iexact H1
  isplitl [H2]; · iexact H2
  by_cases h1 : t.val % 5 = 4
  · have hi : idle0 3 (grid0.coords t) = false := Bool.eq_false_iff.mpr fun h => (idle0_3 t).mp h h1
    simp only [hi, if_pos ((hcond0_1 t).mpr h1)]; iexact H3
  · have hf : (win0 3).flush t = false := Bool.eq_false_iff.mpr (mt (flush0_3 t).mp h1)
    simp only [(idle0_3 t).mpr h1, hf, if_neg (mt (hcond0_1 t).mp h1)]; iexists _; iexact H3

theorem hin0 (c : Dev nD) : Pipeline.ΦA spec0 c ⊢ (dat0 V c).Φ 0 := by
  rw [PhiA0_eq]; refine Phi0_mono c ?_
  unfold accAt0
  iintro ⟨%d, H⟩; iexists d; isplitr; · ipureintro; exact fun m e => absurd e.symm (Nat.succ_ne_zero m)
  iexact H

theorem hout0 (c : Dev nD) : (dat0 V c).Φ (Fin.last cfg0.N) ⊢ Pipeline.ΦA spec0 c := by
  rw [PhiA0_eq]; refine Phi0_mono c ?_
  unfold accAt0
  iintro ⟨%a, -, H⟩; iexists a; iexact H

theorem scratch0_step (c : Dev nD) (t : Fin cfg0.N) :
    (outsAt0 V c t.val t.isLt).2 = k0_pay2 (xslice0 V c t) (if t.val % 5 = 0 then k0_pay1 (F := F) else (outsAt0 V c (t.val - 1) (Nat.lt_of_le_of_lt (Nat.sub_le _ _) t.isLt)).2) (iblk0 V c 0 t) := by
  obtain ⟨n, hn⟩ := t
  have e := hcond0_0 ⟨n, hn⟩
  cases n with
  | zero => exact congrArg (k0_pay2 _ · _) ((ite_self _).trans (if_pos (Nat.zero_mod 5)).symm)
  | succ n => exact congrArg (k0_pay2 _ · _) (if_congr e rfl rfl)

theorem out0_step (c : Dev nD) (t : Fin cfg0.N) (h : t.val % 5 = 4) :
    (outsAt0 V c t.val t.isLt).1 = k0_pay3 ((outsAt0 V c t.val t.isLt).2) (iblk0 V c 2 t) := rfl

end Cert.Kernel.Hand

end
-- ==== Proof.KR1.lean ====
import proofs.«421758_j64261300683140_3_alg».proof.Proof.Gen.Kernel.Launch
import proofs.«421758_j64261300683140_3_alg».proof.Proof.Gen.Kernel.Skeleton
import proofs.«421758_j64261300683140_3_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S1024x256 := Rect.unit (s := S1024x256) ![0, 0] S1024x256.size inb_S1024x256_S1024x256_0_0
abbrev r1_w : Rect S256x128 := Rect.unit (s := S256x128) ![0, 0] S256x128.size inb_S256x128_S256x128_0_0
abbrev r1_o : Rect S1024x128 := Rect.unit (s := S1024x128) ![0, 0] S1024x128.size inb_S1024x128_S1024x128_0_0

def out1_2 (x0 : Vec F S1024x256 .f32) (x1 : Vec F S256x128 .f32) : Vec F S1024x128 .f32 :=
  View.canon [⟨r1_o, k1_pay1 (View.ld x0 r1_x) (View.ld x1 r1_w)⟩]

theorem cover1_2 (p0 : Vec F S1024x128 .f32) (y : S1024x128.Idx) :
    ∃ pc ∈ ([⟨r1_o, p0⟩] : List (View.Piece (Elt F) S1024x128 .f32)), y ∈ pc.1.set :=
  View.cover_of_tiled [⟨r1_o, p0⟩] S1024x128.size (by rfl) y

theorem sound_kernel1 (c : Dev nD) (E : Set ℕ) (i : grid1.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_gemm_kernel i arg1 harg1 arg2 harg2 arg3 harg3) K := by
  simp only [cc1__dense_gemm_kernel_eq_skeleton]; unfold cc1__dense_gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; rotate_left; isplitl [H1]
  all_goals (iexists _; isplitr; swap; · first | iexact H0 | iexact H1 | iexact H2)
  all_goals ipureintro
  all_goals first | exact View.read_writes_eq_canon _ _ _ (cover1_2 _) | rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_out (c : Dev nD) (t : Fin cfg1.N) : (dat1 V c).after 2 t = out1_2 (iblk1 V c 0 t) (iblk1 V c 1 t) := by dsimp only [dat1]

theorem before1 (c : Dev nD) (t : Fin cfg1.N) : (∀ d, (dat1 V c).before 0 t d = iblk1 V c 0 t) ∧ (∀ d, (dat1 V c).before 1 t d = iblk1 V c 1 t) :=
  ⟨fun d => ((dat1 V c).before_in_eq_fetched 0 rfl (fun _ => rfl) (fun _ _ _ => rfl) (fun _ => rfl) t d).trans rfl,
   fun d => ((dat1 V c).before_in_eq_fetched 1 rfl (fun _ => rfl) (fun _ _ _ => rfl) (fun _ => rfl) t d).trans rfl⟩

theorem body_obligation1 (c : Dev nD) : BodyObligation (dat1 (F := F) V c) (defs₀ (F := F)) Variants.none () Set.univ := fun t => by
  rw [bigSep_W1, bigSep_W1]
  simp only [(before1 V c t).1, (before1 V c t).2]
  show _ ⊢ wp frame _ _ (bodyAt1 t) _
  rw [show (dat1 V c).Φ t.succ = (dat1 V c).Φ t.castSucc from rfl,
    show (dat1 V c).owesAt () t.succ = (dat1 V c).owesAt () t.castSucc from rfl,
    show (dat1 V c).after 0 t = iblk1 V c 0 t from by dsimp only [dat1], show (dat1 V c).after 1 t = iblk1 V c 1 t from by dsimp only [dat1], after1_out]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.KR2.lean ====
import proofs.«421758_j64261300683140_3_alg».proof.Proof.Gen.Kernel.Launch
import proofs.«421758_j64261300683140_3_alg».proof.Proof.Gen.Kernel.Skeleton
import proofs.«421758_j64261300683140_3_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def xslice2 (c : Dev nD) (t : Fin cfg2.N) : Vec F S2048x128 .f32 :=
  View.ld (iblk2 V c 1 t) (Rect.unit (s := S10240x128) (k2_off1 (grid2.coords t)) S2048x128.size (k2_off1_inb (grid2.coords t)))

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 5 = 0 := by decide +kernel
theorem hcond2_1 : ∀ t : Fin cfg2.N, k2_cond2 (grid2.coords t) = 1#1 ↔ t.val % 5 = 4 := by decide +kernel
theorem idle2_2 : ∀ t : Fin cfg2.N, idle2 2 (grid2.coords t) = true ↔ ¬t.val % 5 = 4 := by decide +kernel

theorem hz2 : (![0, 0] : Fin 2 → Nat) = fun _ => 0 := funext fun a => by fin_cases a <;> rfl

-- The newest piece covers every index, so the read returns its payload whatever the older pieces are.
theorem read_top2 {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid2.Coords) (arg2 : Memref sig .tc .vmem S1024x2048 .f32) (harg2 : arg2.IsWhole) (arg3 : Memref sig .tc .vmem S10240x128 .f32) (harg3 : arg3.IsWhole) (arg4 : Memref sig .tc .vmem S1024x128 .f32) (harg4 : arg4.IsWhole) (arg5 : Memref sig .tc .vmem S1024x128 .f32) (harg5 : arg5.IsWhole) (x0 : Vec F S1024x2048 .f32) (x1 : Vec F S10240x128 .f32) (a d4 : Vec F S1024x128 .f32)

-- One step of the blocked product: the block product added to zero at a row block's first column block, to the running sum `a` elsewhere.
def pay2 : Vec F S1024x128 .f32 :=
  k2_pay2 (View.ld x1 (Rect.unit (s := S10240x128) (k2_off1 i) S2048x128.size (k2_off1_inb i))) (if cond2_0 i then k2_pay1 else a) x0

theorem kernelRun2 (hx : ¬(cond2_0 i ∧ k2_cond2 i = 1#1)) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare a
        ∗ (iprop(owns (c : Thread nD τ) arg2 fullShare x0 ∗ owns (c : Thread nD τ) arg3 fullShare x1 ∗ owns (c : Thread nD τ) arg4 fullShare (if k2_cond2 i = 1#1 then pay2 i x0 x1 a else d4) ∗ owns (c : Thread nD τ) arg5 fullShare (pay2 i x0 x1 a)) -∗ K ⟨⟩))
      ⊢ wp frame (wpE (defs₀ (F := F)) Variants.none c none) E (cc2__spmm_kernel i arg2 harg2 arg3 harg3 arg4 harg4 arg5 harg5) K := by
  simp only [cc2__spmm_kernel_eq_skeleton]; unfold cc2__spmm_kernel_skel owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  by_cases hc0 : cond2_0 i <;> by_cases hc1 : k2_cond2 i = 1#1
  · exact absurd ⟨hc0, hc1⟩ hx
  all_goals
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2] <;> (iexists _; isplitr; swap; · first | iexact H2 | iexact HS0) <;> ipureintro <;>
      first
      | rw [if_neg hc1]; exact hf2
      | (try rw [if_pos hc1]); sl_unfold_run_names; rw [read_top2 _ _ hz2]; unfold pay2; (first | rw [if_pos hc0] | rw [if_neg hc0])
        simp only [View.readCov_unit_zero (S := S1024x128) _ hz2, View.readAt_eq_ld, harg2.read_unread, harg3.read_unread, harg5.read_unread, View.ld_unit_zero (S := S1024x2048) hz2, View.ld_unit_zero (S := S1024x128) hz2]

end

abbrev scM2 : Memref sig .tc .vmem S1024x128 .f32 := Memref.whole cc2_scratch0

def Phi2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = Phi2 (F := F) c iprop(∃ d, owns (c : Thread nD τ) scM2 fullShare d) := by
  unfold Pipeline.ΦA Phi2
  rw [Pipeline.scopedRest_split_of_list spec2 c [cc2_scratch0] (by decide) (by decide)]
  simp only [scM2, owns_whole]; rfl

theorem Phi2_mono (c : Dev nD) {P Q : sProp 𝕄} (h : P ⊢ Q) : Phi2 (F := F) c P ⊢ Phi2 c Q := by
  unfold Phi2
  iintro ⟨⟨HP, HR⟩, Hg⟩
  isplitl [HP HR]
  · isplitl [HP]; · iapply h; iexact HP
    iexact HR
  iexact Hg

-- The running sums of the blocked product, by recursion on the position.
def acc2 (c : Dev nD) : (n : ℕ) → n < cfg2.N → Vec F S1024x128 .f32
  | 0, hn => pay2 (grid2.coords ⟨0, hn⟩) (iblk2 V c 0 ⟨0, hn⟩) (iblk2 V c 1 ⟨0, hn⟩) k2_pay1
  | n + 1, hn => pay2 (grid2.coords ⟨n + 1, hn⟩) (iblk2 V c 0 ⟨n + 1, hn⟩) (iblk2 V c 1 ⟨n + 1, hn⟩) (acc2 c n (Nat.lt_of_succ_lt hn))

def outsAt2 (c : Dev nD) (n : ℕ) (h : n < cfg2.N) : Vec F S1024x128 .f32 × Vec F S1024x128 .f32 :=
  (acc2 V c n h, acc2 V c n h)

theorem acc2_eq (c : Dev nD) (t : Fin cfg2.N) (a : Vec F S1024x128 .f32) (ha : ∀ m (e : t.val = m + 1), a = acc2 V c m (by omega)) :
    pay2 (grid2.coords t) (iblk2 V c 0 t) (iblk2 V c 1 t) a = acc2 V c t.val t.isLt := by
  obtain ⟨n, hn⟩ := t
  cases n with
  | zero => unfold acc2 pay2; rw [if_pos ((hcond2_0 _).mpr rfl), ite_self]
  | succ m => rw [ha m rfl]; rfl

-- Before position `n` the running sum is that of position `n - 1`, if there is one.
def accAt2 (c : Dev nD) (n : ℕ) (h : n ≤ cfg2.N) : sProp 𝕄 :=
  iprop(∃ a, ⌜∀ m (e : n = m + 1), a = acc2 V c m (by omega)⌝ ∗ owns (c : Thread nD τ) scM2 fullShare a)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := Phi2 c (accAt2 V c t.val (Nat.le_of_lt_succ t.isLt))
  q _ := fullShare
  owed _ := 0

theorem A_eq2 (c : Dev nD) (w : Fin cfg2.W) : (dat2 V c).A w = V c (Pipeline.arrRef spec2 w) := rfl

theorem after2_out (c : Dev nD) (t : Fin cfg2.N) : (dat2 V c).after 2 t = (outsAt2 V c t.val t.isLt).1 := rfl

theorem before2_0 (c : Dev nD) (t : Fin cfg2.N) (d) : (dat2 V c).before 0 t d = iblk2 V c 0 t :=
  (Dat.before_in_eq_fetched (dat2 V c) 0 rfl (fun _ => rfl) (fun _ _ _ => rfl) (fun _ => rfl) t d).trans rfl
theorem before2_1 (c : Dev nD) (t : Fin cfg2.N) (d) : (dat2 V c).before 1 t d = iblk2 V c 1 t :=
  (Dat.before_in_eq_fetched (dat2 V c) 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2_0, before2_1]
  have hx : ¬(cond2_0 (grid2.coords t) ∧ k2_cond2 (grid2.coords t) = 1#1) := fun h => by
    have := (hcond2_0 t).mp h.1; have := (hcond2_1 t).mp h.2; omega
  show iprop(Phi2 c (accAt2 V c t.val _) ∗ _) ⊢ wp frame _ _ (bodyAt2 t) fun _ => iprop(Phi2 c (accAt2 V c (t.val + 1) _) ∗ _)
  unfold Phi2 accAt2
  iintro ⟨⟨⟨⟨%a, %ha, HS⟩, HR⟩, Hg⟩, Ho, ⟨%d0, H0⟩, ⟨%d1, H1⟩, ⟨%d2, H2⟩⟩
  iapply (kernelRun2 c _ _ _ _ _ _ _ _ _ (iblk2 V c 0 t) (iblk2 V c 1 t) a _ hx Set.univ _)
  isplitl [H0]; · iexact H0
  isplitl [H1]; · iexact H1
  isplitl [H2]; · iexact H2
  isplitl [HS]; · iexact HS
  rw [acc2_eq V c t a ha]
  iintro ⟨H0, H1, H2, HS⟩
  isplitl [HS HR Hg]
  · isplitl [HS HR]
    · isplitl [HS]
      · iexists _; isplitr; swap; · iexact HS
        ipureintro; intro m e; cases e; rfl
      iexact HR
    iexact Hg
  isplitl [Ho]; · iexact Ho
  isplitl [H0]; · iexact H0
  isplitl [H1]; · iexact H1
  by_cases h1 : t.val % 5 = 4
  · have hi : idle2 2 (grid2.coords t) = false := Bool.eq_false_iff.mpr fun h => (idle2_2 t).mp h h1
    simp only [hi, if_pos ((hcond2_1 t).mpr h1)]; iexact H2
  · have hf : (win2 2).flush t = false := Bool.eq_false_iff.mpr (mt (flush2_2 t).mp h1)
    simp only [(idle2_2 t).mpr h1, hf, if_neg (mt (hcond2_1 t).mp h1)]; iexists _; iexact H2

theorem hin2 (c : Dev nD) : Pipeline.ΦA spec2 c ⊢ (dat2 V c).Φ 0 := by
  rw [PhiA2_eq]; refine Phi2_mono c ?_
  unfold accAt2
  iintro ⟨%d, H⟩; iexists d; isplitr; · ipureintro; exact fun m e => absurd e.symm (Nat.succ_ne_zero m)
  iexact H

theorem hout2 (c : Dev nD) : (dat2 V c).Φ (Fin.last cfg2.N) ⊢ Pipeline.ΦA spec2 c := by
  rw [PhiA2_eq]; refine Phi2_mono c ?_
  unfold accAt2
  iintro ⟨%a, -, H⟩; iexists a; iexact H

theorem scratch2_step (c : Dev nD) (t : Fin cfg2.N) :
    (outsAt2 V c t.val t.isLt).2 = k2_pay2 (xslice2 V c t) (if t.val % 5 = 0 then k2_pay1 else (outsAt2 V c (t.val - 1) (Nat.lt_of_le_of_lt (Nat.sub_le _ _) t.isLt)).2) (iblk2 V c 0 t) := by
  obtain ⟨n, hn⟩ := t
  have e := hcond2_0 ⟨n, hn⟩
  cases n with
  | zero => exact congrArg (k2_pay2 _ · _) ((ite_self _).trans (if_pos (Nat.zero_mod 5)).symm)
  | succ n => exact congrArg (k2_pay2 _ · _) (if_congr e rfl rfl)

theorem out2_step (c : Dev nD) (t : Fin cfg2.N) (h : t.val % 5 = 4) :
    (outsAt2 V c t.val t.isLt).1 = (outsAt2 V c t.val t.isLt).2 := rfl

end Cert.Kernel.Hand

end
-- ==== Proof.KRun.lean ====
import proofs.«421758_j64261300683140_3_alg».proof.Proof.KR0
import proofs.«421758_j64261300683140_3_alg».proof.Proof.KR1
import proofs.«421758_j64261300683140_3_alg».proof.Proof.KR2
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

abbrev adm : (p : Fin 3) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev St (V : Dev nD → Valuation τ sig (Elt F)) (c : Dev nD) : sProp 𝕄 :=
  iprop(StableHlo.held (c : Thread nD τ) (Pipeline.ucRefs τ sig) (V c) ∗ R c)
abbrev DatAt (p : Fin 3) := (c : Dev nD) → Dat τ (Elt F) Unit ℕ (UR sig nD τ) ℕ (Pipeline.pin (pcfgs (F := F)) adm p) c
abbrev rd (W : Dev nD → Valuation τ sig (Elt F)) : (c : Dev nD) → (b : Ref sig .tc) → Buf (Elt F) ((c : Thread nD τ).loc b) := fun c b => W c b

variable (p : Fin 3) (lf : Pipeline.LaunchFacts (nD := nD) (τ := τ) cfgs p) (W : Dev nD → Valuation τ sig (Elt F))
  (D : DatAt (F := F) p) (pd : (p : Fin 3) → DatAt (F := F) p)

/-- The buffers after region `p` entered at `W`: its arrays at their final contents, every other buffer as entered. -/
def exitW (c : Dev nD) : Valuation τ sig (Elt F) :=
  Pipeline.withArrays (cfgs p).spec c (W c) fun w => (D c).arrAt w (cfgs p).N

include lf in
theorem exitW_arr (c : Dev nD) (w : Fin (cfgs p).W) :
    exitW p W D c (Proc.devRef .tc (Pipeline.arrRef (cfgs p).spec w)) = (D c).arrAt w (cfgs p).N :=
  Pipeline.withArrays_arr _ lf.win.arr_inj c _ _ w

theorem exitW_of_ne (c : Dev nD) (b : Ref sig .tc) (hb : ∀ w, Pipeline.arrRef (cfgs p).spec w ≠ b) :
    exitW p W D c (Proc.devRef .tc b) = W c (Proc.devRef .tc b) :=
  Pipeline.withArrays_of_ne _ c _ _ b hb

include lf in
/-- A buffer that is no output array of region `p` leaves it as it entered: an input array's final contents are its first. -/
theorem exitW_keep (hA : ∀ c w, (D c).A w = W c (Proc.devRef .tc (Pipeline.arrRef (cfgs p).spec w))) (c : Dev nD) (b : Ref sig .tc)
    (hb : ∀ w, Pipeline.arrRef (cfgs p).spec w = b → ((cfgs p).win w).isOut = false) :
    exitW p W D c (Proc.devRef .tc b) = W c (Proc.devRef .tc b) := by
  by_cases h : ∃ w, Pipeline.arrRef (cfgs p).spec w = b
  · obtain ⟨w, rfl⟩ := h
    exact (exitW_arr p lf W D c w).trans (((D c).arrAt_in w (hb w rfl) _).trans (hA c w))
  · exact exitW_of_ne p W D c b fun w e => h ⟨w, e⟩

set_option backward.isDefEq.respectTransparency.types false in
/-- Region `p` as a segment: entered with every unscoped buffer at `W`, left with them at `exitW`. -/
def reg (hb : ∀ c, BodyObligation (pd p c) defs₀ 𝒱₀ () Set.univ)
    (hA : ∀ c w, (pd p c).A w = W c (Proc.devRef .tc (Pipeline.arrRef (cfgs p).spec w)))
    (hi : ∀ c, (Pipeline.ΦA (cfgs p).spec c : sProp 𝕄) ⊢ (pd p c).Φ 0)
    (ho : ∀ c, (pd p c).Φ (Fin.last _) ⊢ (Pipeline.ΦA (cfgs p).spec c : sProp 𝕄))
    (hq : ∀ c w, (pd p c).q w = fullShare) (h0 : ∀ c t, (pd p c).owed t = 0) (hr : ∀ c x, x ∈ (pd p c).recorded 0) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := St W
  post := St (exitW p W (pd p))
  X c := iprop(∃ r, prngReg c r)
  Y c := iprop(∃ r, prngReg c r)
  Z c := Pipeline.unscopedRest (cfgs p).spec c (rd W c)
  hentry c := by
    have hsplit := Pipeline.arrays_of_unscopedBufs (p := p) (pcfgs (F := F)) adm pd lf.win lf.arr_whole c ((pd p c).share_full (hq c)) (rd W c) (hA c)
    rw [Pipeline.unscopedBufs_held] at hsplit
    unfold Pipeline.Dat.owesAt Pipeline.owesWithin
    rw [Pipeline.ownSems0_none, h0 c 0]
    iintro ⟨⟨Hub, Hp, %T, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    iexists T; isplitr; · ipureintro; exact fun x _ => Or.inl (hr c x)
    iexact HO
  hin c := by
    iintro ⟨Hp, -, Hr⟩
    iapply hi c
    unfold Pipeline.ΦA
    iframe
  hout c := by
    rw [Pipeline.ownSems0_none]
    iintro H
    ihave H' := ho c $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (rd W c) (rd (exitW p W (pd p)) c) ((pd p c).arrAt · (cfgs p).N)
      (fun w => (exitW_arr p lf W (pd p) c w).symm)
      (fun b hb => exitW_of_ne p W (pd p) c b fun w e => hb (Finset.mem_image.mpr ⟨w, Finset.mem_univ _, e⟩))
    rw [Pipeline.unscopedBufs_held] at hjoin
    unfold Pipeline.Dat.owesAt Pipeline.owesWithin
    rw [h0 c _]
    iintro ⟨Ha, ⟨%T, -, HO⟩, HY, Hrest⟩
    imodintro
    isplitl [Ha Hrest]
    · iapply hjoin; iframe
    isplitl [HY]; · iexact HY
    iexists T; iexact HO

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := rd (W1 m ρ)
def W2 : Dev nD → Valuation τ sig (Elt F) := exitW 0 (W1 m ρ) (dat0 (V1 m ρ))
theorem W2_arr (c : Dev nD) (w : Fin cfg0.W) :
    W2 m ρ c (Proc.devRef .tc (Pipeline.arrRef spec0 w)) = (dat0 (V1 m ρ) c).arrAt w cfg0.N := exitW_arr 0 launch0 _ _ c w
theorem W2_of_ne (c : Dev nD) (b : Ref sig .tc) (hb : ∀ w, Pipeline.arrRef spec0 w ≠ b) :
    W2 m ρ c (Proc.devRef .tc b) = W1 m ρ c (Proc.devRef .tc b) := exitW_of_ne 0 _ _ c b hb
abbrev V2 := rd (W2 m ρ)
def W3 : Dev nD → Valuation τ sig (Elt F) := exitW 1 (W2 m ρ) (dat1 (V2 m ρ))
theorem W3_arr (c : Dev nD) (w : Fin cfg1.W) :
    W3 m ρ c (Proc.devRef .tc (Pipeline.arrRef spec1 w)) = (dat1 (V2 m ρ) c).arrAt w cfg1.N := exitW_arr 1 launch1 _ _ c w
theorem W3_of_ne (c : Dev nD) (b : Ref sig .tc) (hb : ∀ w, Pipeline.arrRef spec1 w ≠ b) :
    W3 m ρ c (Proc.devRef .tc b) = W2 m ρ c (Proc.devRef .tc b) := exitW_of_ne 1 _ _ c b hb
abbrev V3 := rd (W3 m ρ)
def W4 : Dev nD → Valuation τ sig (Elt F) := exitW 2 (W3 m ρ) (dat2 (V3 m ρ))
abbrev W5 : Dev nD → Valuation τ sig (Elt F) := fun c => StableHlo.after hostOps3 (W4 m ρ c)

abbrev args : List (Ref sig .tc) := [main_arg0, main_arg1, main_arg2, main_arg3, main_arg4, main_arg5]

/-- No host operation writes an argument. -/
theorem host_keeps {b : Ref sig .tc} (hb : b ∈ args) (X : Valuation τ sig (Elt F)) :
    StableHlo.after hostOps0 X (Proc.devRef .tc b) = X (Proc.devRef .tc b)
      ∧ StableHlo.after hostOps3 X (Proc.devRef .tc b) = X (Proc.devRef .tc b) := by
  constructor <;> refine StableHlo.after_of_forall_not_mem _ _ (List.forall_iff_forall_mem.mp ?_) <;>
    simp only [hostOps0, hostOps3, List.Forall, StableHlo.nullary_writes, StableHlo.unary_writes, StableHlo.binary_writes, StableHlo.ternary_writes, Finset.mem_singleton] <;>
    (repeat' apply And.intro) <;> exact StableHlo.devRef_ne_of_ne (by rintro rfl; revert hb; decide)

/-- No argument is an output array of a region. -/
theorem args_in : ∀ p : Fin 3, ∀ b ∈ args, ∀ w, Pipeline.arrRef (cfgs p).spec w = b → ((cfgs p).win w).isOut = false := by decide

/-- An argument ends as launched: no host operation writes it and it is no region's output. -/
theorem W5_arg {b : Ref sig .tc} (hb : b ∈ args) (c : Dev nD) : W5 m ρ c (Proc.devRef .tc b) = m ((c : Thread nD τ).loc b) :=
  (host_keeps hb _).2.trans <| (exitW_keep 2 launch2 _ _ (A_eq2 _) c b (args_in 2 b hb)).trans <|
    (exitW_keep 1 launch1 _ _ (A_eq1 _) c b (args_in 1 b hb)).trans <|
    (exitW_keep 0 launch0 _ _ (A_eq0 _) c b (args_in 0 b hb)).trans (host_keeps hb _).1

def pdats : (p : Fin 3) → DatAt (F := F) p
  | ⟨0, _⟩ => dat0 (V1 m ρ)
  | ⟨1, _⟩ => dat1 (V2 m ρ)
  | ⟨2, _⟩ => dat2 (V3 m ρ)

abbrev hseg (ops : List (HloOp τ sig (Elt F))) (hsub : ops.Forall fun op => op.bufs ⊆ StableHlo.tcRefs τ sig)
    (W : Dev nD → Valuation τ sig (Elt F)) (hfresh : ops.Forall fun op => op.fresh = ∅) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def hs0 := hseg hostOps0 hostOps0_sub (W0 m ρ) (by simp only [List.Forall]; repeat' constructor)
def hs3 := hseg hostOps3 hostOps3_sub (W4 m ρ) (by simp only [List.Forall]; repeat' constructor)
def reg0 := reg 0 launch0 (W1 m ρ) (pdats m ρ) (body_obligation0 _) (A_eq0 _) (hin0 _) (hout0 _) (fun _ _ => rfl) (fun _ _ => rfl) fun _ _ => trivial
def reg1 := reg 1 launch1 (W2 m ρ) (pdats m ρ) (body_obligation1 _) (A_eq1 _) (fun _ => .rfl) (fun _ => .rfl) (fun _ _ => rfl) (fun _ _ => rfl) fun _ _ => trivial
def reg2 := reg 2 launch2 (W3 m ρ) (pdats m ρ) (body_obligation2 _) (A_eq2 _) (hin2 _) (hout2 _) (fun _ _ => rfl) (fun _ _ => rfl) fun _ _ => trivial

abbrev segs : List (Pipeline.Seg (pcfgs (F := F)) adm (pdats m ρ) () defs₀ 𝒱₀ L lv) :=
  [ .host (hs0 m ρ),
    .region (reg0 m ρ),
    .region (reg1 m ρ),
    .region (reg2 m ρ),
    .host (hs3 m ρ) ]

abbrev u₀ := initOf (Pipeline.cells cfgs cellOf_inj) (Pipeline.launchToks cfgs cellOf_inj)

set_option backward.isDefEq.respectTransparency.types false in
/-- Every weakly fair execution of @main terminates, and the final memory holds every unscoped buffer at `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [(main_chain c).trans (by chain_rfl : _ = Pipeline.Seg.run (segs m ρ))])
    (by simp only [segs, Pipeline.Seg.pipes_host, Pipeline.Seg.pipes_region, Pipeline.Seg.pipes_nil]; decide)
    (O₀ := 0) (hL := fun _ _ => rfl) (G := fun _ => (BI.emp : sProp 𝕄))
    (u₀ := u₀)
    (hu₀ := by
      rw [BI.bigSep_emp_const]; iintro Hu; imodintro
      isplitl [Hu]
      · iapply (show (ownU u₀ : sProp 𝕄) ⊢ BI.own (emb₁ u₀) from .rfl); iexact Hu
      iempintro)
    (T₀ := St (W0 m ρ))
    (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp] <;> iexists _ <;> iassumption)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      iframe)
    (hQ := fun s h c => h c)

/-- The result buffer ends at `W5`'s value and every argument array as launched. -/
theorem run_frame : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have k {b : Ref sig .tc} (hb : b ∈ args) (hs : ¬ (Proc.devRef .tc b : DevRef τ sig).isScoped) :
        r.2.mem ((c.tc : Thread nD τ).loc b) = m ((c.tc : Thread nD τ).loc b) := (h c _ (mem_uc b hs)).trans (W5_arg m ρ hb c)
    ⟨h c _ (mem_uc main_v0 (by decide)), k (by decide) (by decide), k (by decide) (by decide), k (by decide) (by decide),
      k (by decide) (by decide), k (by decide) (by decide), k (by decide) (by decide)⟩) (run m ρ)

/-- The result buffer at the end: the leading rows of what region 2 leaves in its output array. -/
theorem W5_main_v0 (c : Dev nD) :
    W5 m ρ c (Proc.devRef .tc main_v0)
      = extractStridedSlice S10000x128 ![0, 0] ((dat2 (V3 m ρ) c).arrAt 2 cfg2.N) slices_S10240x128_S10000x128_0_0 := by
  rw [← show W4 m ρ c (Proc.devRef .tc (Pipeline.arrRef spec2 2)) = (dat2 (V3 m ρ) c).arrAt 2 cfg2.N from exitW_arr 2 launch2 _ _ c 2]
  show StableHlo.after hostOps3 (W4 m ρ c) (Proc.devRef .tc main_v0) = _
  after_results
  rfl

end Cert.Kernel.Hand

end
-- ==== Proof.R0.lean ====
import proofs.«421758_j64261300683140_3_alg».proof.Proof.Gen.KernelIdeal.Launch
import proofs.«421758_j64261300683140_3_alg».proof.Proof.Gen.KernelIdeal.Skeleton
import proofs.«421758_j64261300683140_3_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def xslice0 (c : Dev nD) (t : Fin cfg0.N) : Vec F S2048x256 .f32 :=
  View.ld (Val := Elt F) (S := S10240x256) (e' := .f32) (iblk0 V c 1 t) (Rect.unit (s := S10240x256) (k0_off1 (grid0.coords t)) S2048x256.size (k0_off1_inb (grid0.coords t)))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 5 = 0 := by decide +kernel
theorem hcond0_1 : ∀ t : Fin cfg0.N, k0_cond2 (grid0.coords t) = 1#1 ↔ t.val % 5 = 4 := by decide +kernel
theorem idle0_3 : ∀ t : Fin cfg0.N, idle0 3 (grid0.coords t) = true ↔ ¬t.val % 5 = 4 := by decide +kernel

theorem hz0 : (![0, 0] : Fin 2 → Nat) = fun _ => 0 := funext fun a => by fin_cases a <;> rfl

-- The newest piece covers every index, so the read returns its payload whatever the older pieces are.
theorem read_top0 {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid0.Coords) (arg2 : Memref sig .tc .vmem S1024x2048 .f32) (harg2 : arg2.IsWhole) (arg3 : Memref sig .tc .vmem S10240x256 .f32) (harg3 : arg3.IsWhole) (arg4 : Memref sig .tc .vmem S256x256 .f32) (harg4 : arg4.IsWhole) (arg5 : Memref sig .tc .vmem S1024x256 .f32) (harg5 : arg5.IsWhole) (arg6 : Memref sig .tc .vmem S1024x256 .f32) (harg6 : arg6.IsWhole) (x0 : Vec F S1024x2048 .f32) (x1 : Vec F S10240x256 .f32) (x2 : Vec F S256x256 .f32) (a d5 : Vec F S1024x256 .f32)

-- One step of the blocked product: the block product added to zero at a row block's first column block, to the running sum `a` elsewhere.
def pay0 : Vec F S1024x256 .f32 :=
  k0_pay2 (View.ld x1 (Rect.unit (s := S10240x256) (k0_off1 i) S2048x256.size (k0_off1_inb i))) (if cond0_0 i then k0_pay1 else a) x0

theorem kernelRun0 (hx : ¬(cond0_0 i ∧ k0_cond2 i = 1#1)) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg6 fullShare a
        ∗ (iprop(owns (c : Thread nD τ) arg2 fullShare x0 ∗ owns (c : Thread nD τ) arg3 fullShare x1 ∗ owns (c : Thread nD τ) arg4 fullShare x2 ∗ owns (c : Thread nD τ) arg5 fullShare (if k0_cond2 i = 1#1 then k0_pay3 (pay0 i x0 x1 a) x2 else d5) ∗ owns (c : Thread nD τ) arg6 fullShare (pay0 i x0 x1 a)) -∗ K ⟨⟩))
      ⊢ wp frame (wpE (defs₀ (F := F)) Variants.none c none) E (cc0__spmm_gemm_relu_kernel i arg2 harg2 arg3 harg3 arg4 harg4 arg5 harg5 arg6 harg6) K := by
  simp only [cc0__spmm_gemm_relu_kernel_eq_skeleton]; unfold cc0__spmm_gemm_relu_kernel_skel owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg6.eq_unread hfs0
  by_cases hc0 : cond0_0 i <;> by_cases hc1 : k0_cond2 i = 1#1
  · exact absurd ⟨hc0, hc1⟩ hx
  all_goals
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3] <;> (iexists _; isplitr; swap; · first | iexact H3 | iexact HS0) <;> ipureintro <;>
      first
      | rw [if_neg hc1]; exact hf3
      | (try rw [if_pos hc1]); sl_unfold_run_names; rw [read_top0 _ _ hz0]; unfold pay0; (first | rw [if_pos hc0] | rw [if_neg hc0])
        simp only [View.readCov_unit_zero (S := S1024x256) _ hz0, View.readAt_eq_ld, harg2.read_unread, harg3.read_unread, harg4.read_unread, harg6.read_unread, View.ld_unit_zero (S := S1024x2048) hz0, View.ld_unit_zero (S := S1024x256) hz0, View.ld_unit_zero (S := S256x256) hz0]

end

abbrev scM0 : Memref sig .tc .vmem S1024x256 .f32 := Memref.whole cc0_scratch0

def Phi0 (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

theorem PhiA0_eq (c : Dev nD) : (Pipeline.ΦA spec0 c : sProp 𝕄) = Phi0 (F := F) c iprop(∃ d, owns (c : Thread nD τ) scM0 fullShare d) := by
  unfold Pipeline.ΦA Phi0
  rw [Pipeline.scopedRest_split_of_list spec0 c [cc0_scratch0] (by decide) (by decide)]
  simp only [scM0, owns_whole]; rfl

theorem Phi0_mono (c : Dev nD) {P Q : sProp 𝕄} (h : P ⊢ Q) : Phi0 (F := F) c P ⊢ Phi0 c Q := by
  unfold Phi0
  iintro ⟨⟨HP, HR⟩, Hg⟩
  isplitl [HP HR]
  · isplitl [HP]; · iapply h; iexact HP
    iexact HR
  iexact Hg

-- The running sums of the blocked product, by recursion on the position.
def acc0 (c : Dev nD) : (n : ℕ) → n < cfg0.N → Vec F S1024x256 .f32
  | 0, hn => pay0 (grid0.coords ⟨0, hn⟩) (iblk0 V c 0 ⟨0, hn⟩) (iblk0 V c 1 ⟨0, hn⟩) k0_pay1
  | n + 1, hn => pay0 (grid0.coords ⟨n + 1, hn⟩) (iblk0 V c 0 ⟨n + 1, hn⟩) (iblk0 V c 1 ⟨n + 1, hn⟩) (acc0 c n (Nat.lt_of_succ_lt hn))

def outsAt0 (c : Dev nD) (n : ℕ) (h : n < cfg0.N) : Vec F S1024x256 .f32 × Vec F S1024x256 .f32 :=
  (k0_pay3 (acc0 V c n h) (iblk0 V c 2 ⟨n, h⟩), acc0 V c n h)

theorem acc0_eq (c : Dev nD) (t : Fin cfg0.N) (a : Vec F S1024x256 .f32) (ha : ∀ m (e : t.val = m + 1), a = acc0 V c m (by omega)) :
    pay0 (grid0.coords t) (iblk0 V c 0 t) (iblk0 V c 1 t) a = acc0 V c t.val t.isLt := by
  obtain ⟨n, hn⟩ := t
  cases n with
  | zero => unfold acc0 pay0; rw [if_pos ((hcond0_0 _).mpr rfl), ite_self]
  | succ m => rw [ha m rfl]; rfl

-- Before position `n` the running sum is that of position `n - 1`, if there is one.
def accAt0 (c : Dev nD) (n : ℕ) (h : n ≤ cfg0.N) : sProp 𝕄 :=
  iprop(∃ a, ⌜∀ m (e : n = m + 1), a = acc0 V c m (by omega)⌝ ∗ owns (c : Thread nD τ) scM0 fullShare a)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := Phi0 c (accAt0 V c t.val (Nat.le_of_lt_succ t.isLt))
  q _ := fullShare
  owed _ := 0

theorem A_eq0 (c : Dev nD) (w : Fin cfg0.W) : (dat0 V c).A w = V c (Pipeline.arrRef spec0 w) := rfl

theorem after0_out (c : Dev nD) (t : Fin cfg0.N) : (dat0 V c).after 3 t = (outsAt0 V c t.val t.isLt).1 := rfl

theorem before0_0 (c : Dev nD) (t : Fin cfg0.N) (d) : (dat0 V c).before 0 t d = iblk0 V c 0 t :=
  (Dat.before_in_eq_fetched (dat0 V c) 0 rfl (fun _ => rfl) (fun _ _ _ => rfl) (fun _ => rfl) t d).trans rfl
theorem before0_1 (c : Dev nD) (t : Fin cfg0.N) (d) : (dat0 V c).before 1 t d = iblk0 V c 1 t :=
  (Dat.before_in_eq_fetched (dat0 V c) 1 rfl (fun _ => rfl) (fun _ _ _ => rfl) (fun _ => rfl) t d).trans rfl
theorem before0_2 (c : Dev nD) (t : Fin cfg0.N) (d) : (dat0 V c).before 2 t d = iblk0 V c 2 t :=
  (Dat.before_in_eq_fetched (dat0 V c) 2 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1, before0_2]
  have hx : ¬(cond0_0 (grid0.coords t) ∧ k0_cond2 (grid0.coords t) = 1#1) := fun h => by
    have := (hcond0_0 t).mp h.1; have := (hcond0_1 t).mp h.2; omega
  show iprop(Phi0 c (accAt0 V c t.val _) ∗ _) ⊢ wp frame _ _ (bodyAt0 t) fun _ => iprop(Phi0 c (accAt0 V c (t.val + 1) _) ∗ _)
  unfold Phi0 accAt0
  iintro ⟨⟨⟨⟨%a, %ha, HS⟩, HR⟩, Hg⟩, Ho, ⟨%d0, H0⟩, ⟨%d1, H1⟩, ⟨%d2, H2⟩, ⟨%d3, H3⟩⟩
  iapply (kernelRun0 c _ _ _ _ _ _ _ _ _ _ _ (iblk0 V c 0 t) (iblk0 V c 1 t) (iblk0 V c 2 t) a _ hx Set.univ _)
  isplitl [H0]; · iexact H0
  isplitl [H1]; · iexact H1
  isplitl [H2]; · iexact H2
  isplitl [H3]; · iexact H3
  isplitl [HS]; · iexact HS
  rw [acc0_eq V c t a ha]
  iintro ⟨H0, H1, H2, H3, HS⟩
  isplitl [HS HR Hg]
  · isplitl [HS HR]
    · isplitl [HS]
      · iexists _; isplitr; swap; · iexact HS
        ipureintro; intro m e; cases e; rfl
      iexact HR
    iexact Hg
  isplitl [Ho]; · iexact Ho
  isplitl [H0]; · iexact H0
  isplitl [H1]; · iexact H1
  isplitl [H2]; · iexact H2
  by_cases h1 : t.val % 5 = 4
  · have hi : idle0 3 (grid0.coords t) = false := Bool.eq_false_iff.mpr fun h => (idle0_3 t).mp h h1
    simp only [hi, if_pos ((hcond0_1 t).mpr h1)]; iexact H3
  · have hf : (win0 3).flush t = false := Bool.eq_false_iff.mpr (mt (flush0_3 t).mp h1)
    simp only [(idle0_3 t).mpr h1, hf, if_neg (mt (hcond0_1 t).mp h1)]; iexists _; iexact H3

theorem hin0 (c : Dev nD) : Pipeline.ΦA spec0 c ⊢ (dat0 V c).Φ 0 := by
  rw [PhiA0_eq]; refine Phi0_mono c ?_
  unfold accAt0
  iintro ⟨%d, H⟩; iexists d; isplitr; · ipureintro; exact fun m e => absurd e.symm (Nat.succ_ne_zero m)
  iexact H

theorem hout0 (c : Dev nD) : (dat0 V c).Φ (Fin.last cfg0.N) ⊢ Pipeline.ΦA spec0 c := by
  rw [PhiA0_eq]; refine Phi0_mono c ?_
  unfold accAt0
  iintro ⟨%a, -, H⟩; iexists a; iexact H

theorem scratch0_step (c : Dev nD) (t : Fin cfg0.N) :
    (outsAt0 V c t.val t.isLt).2 = k0_pay2 (xslice0 V c t) (if t.val % 5 = 0 then k0_pay1 (F := F) else (outsAt0 V c (t.val - 1) (Nat.lt_of_le_of_lt (Nat.sub_le _ _) t.isLt)).2) (iblk0 V c 0 t) := by
  obtain ⟨n, hn⟩ := t
  have e := hcond0_0 ⟨n, hn⟩
  cases n with
  | zero => exact congrArg (k0_pay2 _ · _) ((ite_self _).trans (if_pos (Nat.zero_mod 5)).symm)
  | succ n => exact congrArg (k0_pay2 _ · _) (if_congr e rfl rfl)

theorem out0_step (c : Dev nD) (t : Fin cfg0.N) (h : t.val % 5 = 4) :
    (outsAt0 V c t.val t.isLt).1 = k0_pay3 ((outsAt0 V c t.val t.isLt).2) (iblk0 V c 2 t) := rfl

end Cert.KernelIdeal.Hand

end
-- ==== Proof.R1.lean ====
import proofs.«421758_j64261300683140_3_alg».proof.Proof.Gen.KernelIdeal.Launch
import proofs.«421758_j64261300683140_3_alg».proof.Proof.Gen.KernelIdeal.Skeleton
import proofs.«421758_j64261300683140_3_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S1024x256 := Rect.unit (s := S1024x256) ![0, 0] S1024x256.size inb_S1024x256_S1024x256_0_0
abbrev r1_w : Rect S256x128 := Rect.unit (s := S256x128) ![0, 0] S256x128.size inb_S256x128_S256x128_0_0
abbrev r1_o : Rect S1024x128 := Rect.unit (s := S1024x128) ![0, 0] S1024x128.size inb_S1024x128_S1024x128_0_0

def out1_2 (x0 : Vec F S1024x256 .f32) (x1 : Vec F S256x128 .f32) : Vec F S1024x128 .f32 :=
  View.canon [⟨r1_o, k1_pay1 (View.ld x0 r1_x) (View.ld x1 r1_w)⟩]

theorem cover1_2 (p0 : Vec F S1024x128 .f32) (y : S1024x128.Idx) :
    ∃ pc ∈ ([⟨r1_o, p0⟩] : List (View.Piece (Elt F) S1024x128 .f32)), y ∈ pc.1.set :=
  View.cover_of_tiled [⟨r1_o, p0⟩] S1024x128.size (by rfl) y

theorem sound_kernel1 (c : Dev nD) (E : Set ℕ) (i : grid1.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_gemm_kernel i arg1 harg1 arg2 harg2 arg3 harg3) K := by
  simp only [cc1__dense_gemm_kernel_eq_skeleton]; unfold cc1__dense_gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; rotate_left; isplitl [H1]
  all_goals (iexists _; isplitr; swap; · first | iexact H0 | iexact H1 | iexact H2)
  all_goals ipureintro
  all_goals first | exact View.read_writes_eq_canon _ _ _ (cover1_2 _) | rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_out (c : Dev nD) (t : Fin cfg1.N) : (dat1 V c).after 2 t = out1_2 (iblk1 V c 0 t) (iblk1 V c 1 t) := by dsimp only [dat1]

theorem before1 (c : Dev nD) (t : Fin cfg1.N) : (∀ d, (dat1 V c).before 0 t d = iblk1 V c 0 t) ∧ (∀ d, (dat1 V c).before 1 t d = iblk1 V c 1 t) :=
  ⟨fun d => ((dat1 V c).before_in_eq_fetched 0 rfl (fun _ => rfl) (fun _ _ _ => rfl) (fun _ => rfl) t d).trans rfl,
   fun d => ((dat1 V c).before_in_eq_fetched 1 rfl (fun _ => rfl) (fun _ _ _ => rfl) (fun _ => rfl) t d).trans rfl⟩

theorem body_obligation1 (c : Dev nD) : BodyObligation (dat1 (F := F) V c) (defs₀ (F := F)) Variants.none () Set.univ := fun t => by
  rw [bigSep_W1, bigSep_W1]
  simp only [(before1 V c t).1, (before1 V c t).2]
  show _ ⊢ wp frame _ _ (bodyAt1 t) _
  rw [show (dat1 V c).Φ t.succ = (dat1 V c).Φ t.castSucc from rfl,
    show (dat1 V c).owesAt () t.succ = (dat1 V c).owesAt () t.castSucc from rfl,
    show (dat1 V c).after 0 t = iblk1 V c 0 t from by dsimp only [dat1], show (dat1 V c).after 1 t = iblk1 V c 1 t from by dsimp only [dat1], after1_out]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.R2.lean ====
import proofs.«421758_j64261300683140_3_alg».proof.Proof.Gen.KernelIdeal.Launch
import proofs.«421758_j64261300683140_3_alg».proof.Proof.Gen.KernelIdeal.Skeleton
import proofs.«421758_j64261300683140_3_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def xslice2 (c : Dev nD) (t : Fin cfg2.N) : Vec F S2048x128 .f32 :=
  View.ld (iblk2 V c 1 t) (Rect.unit (s := S10240x128) (k2_off1 (grid2.coords t)) S2048x128.size (k2_off1_inb (grid2.coords t)))

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 5 = 0 := by decide +kernel
theorem hcond2_1 : ∀ t : Fin cfg2.N, k2_cond2 (grid2.coords t) = 1#1 ↔ t.val % 5 = 4 := by decide +kernel
theorem idle2_2 : ∀ t : Fin cfg2.N, idle2 2 (grid2.coords t) = true ↔ ¬t.val % 5 = 4 := by decide +kernel

theorem hz2 : (![0, 0] : Fin 2 → Nat) = fun _ => 0 := funext fun a => by fin_cases a <;> rfl

-- The newest piece covers every index, so the read returns its payload whatever the older pieces are.
theorem read_top2 {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

section
variable (c : Dev nD) (i : grid2.Coords) (arg2 : Memref sig .tc .vmem S1024x2048 .f32) (harg2 : arg2.IsWhole) (arg3 : Memref sig .tc .vmem S10240x128 .f32) (harg3 : arg3.IsWhole) (arg4 : Memref sig .tc .vmem S1024x128 .f32) (harg4 : arg4.IsWhole) (arg5 : Memref sig .tc .vmem S1024x128 .f32) (harg5 : arg5.IsWhole) (x0 : Vec F S1024x2048 .f32) (x1 : Vec F S10240x128 .f32) (a d4 : Vec F S1024x128 .f32)

-- One step of the blocked product: the block product added to zero at a row block's first column block, to the running sum `a` elsewhere.
def pay2 : Vec F S1024x128 .f32 :=
  k2_pay2 (View.ld x1 (Rect.unit (s := S10240x128) (k2_off1 i) S2048x128.size (k2_off1_inb i))) (if cond2_0 i then k2_pay1 else a) x0

theorem kernelRun2 (hx : ¬(cond2_0 i ∧ k2_cond2 i = 1#1)) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare a
        ∗ (iprop(owns (c : Thread nD τ) arg2 fullShare x0 ∗ owns (c : Thread nD τ) arg3 fullShare x1 ∗ owns (c : Thread nD τ) arg4 fullShare (if k2_cond2 i = 1#1 then pay2 i x0 x1 a else d4) ∗ owns (c : Thread nD τ) arg5 fullShare (pay2 i x0 x1 a)) -∗ K ⟨⟩))
      ⊢ wp frame (wpE (defs₀ (F := F)) Variants.none c none) E (cc2__spmm_kernel i arg2 harg2 arg3 harg3 arg4 harg4 arg5 harg5) K := by
  simp only [cc2__spmm_kernel_eq_skeleton]; unfold cc2__spmm_kernel_skel owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  by_cases hc0 : cond2_0 i <;> by_cases hc1 : k2_cond2 i = 1#1
  · exact absurd ⟨hc0, hc1⟩ hx
  all_goals
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2] <;> (iexists _; isplitr; swap; · first | iexact H2 | iexact HS0) <;> ipureintro <;>
      first
      | rw [if_neg hc1]; exact hf2
      | (try rw [if_pos hc1]); sl_unfold_run_names; rw [read_top2 _ _ hz2]; unfold pay2; (first | rw [if_pos hc0] | rw [if_neg hc0])
        simp only [View.readCov_unit_zero (S := S1024x128) _ hz2, View.readAt_eq_ld, harg2.read_unread, harg3.read_unread, harg5.read_unread, View.ld_unit_zero (S := S1024x2048) hz2, View.ld_unit_zero (S := S1024x128) hz2]

end

abbrev scM2 : Memref sig .tc .vmem S1024x128 .f32 := Memref.whole cc2_scratch0

def Phi2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = Phi2 (F := F) c iprop(∃ d, owns (c : Thread nD τ) scM2 fullShare d) := by
  unfold Pipeline.ΦA Phi2
  rw [Pipeline.scopedRest_split_of_list spec2 c [cc2_scratch0] (by decide) (by decide)]
  simp only [scM2, owns_whole]; rfl

theorem Phi2_mono (c : Dev nD) {P Q : sProp 𝕄} (h : P ⊢ Q) : Phi2 (F := F) c P ⊢ Phi2 c Q := by
  unfold Phi2
  iintro ⟨⟨HP, HR⟩, Hg⟩
  isplitl [HP HR]
  · isplitl [HP]; · iapply h; iexact HP
    iexact HR
  iexact Hg

-- The running sums of the blocked product, by recursion on the position.
def acc2 (c : Dev nD) : (n : ℕ) → n < cfg2.N → Vec F S1024x128 .f32
  | 0, hn => pay2 (grid2.coords ⟨0, hn⟩) (iblk2 V c 0 ⟨0, hn⟩) (iblk2 V c 1 ⟨0, hn⟩) k2_pay1
  | n + 1, hn => pay2 (grid2.coords ⟨n + 1, hn⟩) (iblk2 V c 0 ⟨n + 1, hn⟩) (iblk2 V c 1 ⟨n + 1, hn⟩) (acc2 c n (Nat.lt_of_succ_lt hn))

def outsAt2 (c : Dev nD) (n : ℕ) (h : n < cfg2.N) : Vec F S1024x128 .f32 × Vec F S1024x128 .f32 :=
  (acc2 V c n h, acc2 V c n h)

theorem acc2_eq (c : Dev nD) (t : Fin cfg2.N) (a : Vec F S1024x128 .f32) (ha : ∀ m (e : t.val = m + 1), a = acc2 V c m (by omega)) :
    pay2 (grid2.coords t) (iblk2 V c 0 t) (iblk2 V c 1 t) a = acc2 V c t.val t.isLt := by
  obtain ⟨n, hn⟩ := t
  cases n with
  | zero => unfold acc2 pay2; rw [if_pos ((hcond2_0 _).mpr rfl), ite_self]
  | succ m => rw [ha m rfl]; rfl

-- Before position `n` the running sum is that of position `n - 1`, if there is one.
def accAt2 (c : Dev nD) (n : ℕ) (h : n ≤ cfg2.N) : sProp 𝕄 :=
  iprop(∃ a, ⌜∀ m (e : n = m + 1), a = acc2 V c m (by omega)⌝ ∗ owns (c : Thread nD τ) scM2 fullShare a)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := Phi2 c (accAt2 V c t.val (Nat.le_of_lt_succ t.isLt))
  q _ := fullShare
  owed _ := 0

theorem A_eq2 (c : Dev nD) (w : Fin cfg2.W) : (dat2 V c).A w = V c (Pipeline.arrRef spec2 w) := rfl

theorem after2_out (c : Dev nD) (t : Fin cfg2.N) : (dat2 V c).after 2 t = (outsAt2 V c t.val t.isLt).1 := rfl

theorem before2_0 (c : Dev nD) (t : Fin cfg2.N) (d) : (dat2 V c).before 0 t d = iblk2 V c 0 t :=
  (Dat.before_in_eq_fetched (dat2 V c) 0 rfl (fun _ => rfl) (fun _ _ _ => rfl) (fun _ => rfl) t d).trans rfl
theorem before2_1 (c : Dev nD) (t : Fin cfg2.N) (d) : (dat2 V c).before 1 t d = iblk2 V c 1 t :=
  (Dat.before_in_eq_fetched (dat2 V c) 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2_0, before2_1]
  have hx : ¬(cond2_0 (grid2.coords t) ∧ k2_cond2 (grid2.coords t) = 1#1) := fun h => by
    have := (hcond2_0 t).mp h.1; have := (hcond2_1 t).mp h.2; omega
  show iprop(Phi2 c (accAt2 V c t.val _) ∗ _) ⊢ wp frame _ _ (bodyAt2 t) fun _ => iprop(Phi2 c (accAt2 V c (t.val + 1) _) ∗ _)
  unfold Phi2 accAt2
  iintro ⟨⟨⟨⟨%a, %ha, HS⟩, HR⟩, Hg⟩, Ho, ⟨%d0, H0⟩, ⟨%d1, H1⟩, ⟨%d2, H2⟩⟩
  iapply (kernelRun2 c _ _ _ _ _ _ _ _ _ (iblk2 V c 0 t) (iblk2 V c 1 t) a _ hx Set.univ _)
  isplitl [H0]; · iexact H0
  isplitl [H1]; · iexact H1
  isplitl [H2]; · iexact H2
  isplitl [HS]; · iexact HS
  rw [acc2_eq V c t a ha]
  iintro ⟨H0, H1, H2, HS⟩
  isplitl [HS HR Hg]
  · isplitl [HS HR]
    · isplitl [HS]
      · iexists _; isplitr; swap; · iexact HS
        ipureintro; intro m e; cases e; rfl
      iexact HR
    iexact Hg
  isplitl [Ho]; · iexact Ho
  isplitl [H0]; · iexact H0
  isplitl [H1]; · iexact H1
  by_cases h1 : t.val % 5 = 4
  · have hi : idle2 2 (grid2.coords t) = false := Bool.eq_false_iff.mpr fun h => (idle2_2 t).mp h h1
    simp only [hi, if_pos ((hcond2_1 t).mpr h1)]; iexact H2
  · have hf : (win2 2).flush t = false := Bool.eq_false_iff.mpr (mt (flush2_2 t).mp h1)
    simp only [(idle2_2 t).mpr h1, hf, if_neg (mt (hcond2_1 t).mp h1)]; iexists _; iexact H2

theorem hin2 (c : Dev nD) : Pipeline.ΦA spec2 c ⊢ (dat2 V c).Φ 0 := by
  rw [PhiA2_eq]; refine Phi2_mono c ?_
  unfold accAt2
  iintro ⟨%d, H⟩; iexists d; isplitr; · ipureintro; exact fun m e => absurd e.symm (Nat.succ_ne_zero m)
  iexact H

theorem hout2 (c : Dev nD) : (dat2 V c).Φ (Fin.last cfg2.N) ⊢ Pipeline.ΦA spec2 c := by
  rw [PhiA2_eq]; refine Phi2_mono c ?_
  unfold accAt2
  iintro ⟨%a, -, H⟩; iexists a; iexact H

theorem scratch2_step (c : Dev nD) (t : Fin cfg2.N) :
    (outsAt2 V c t.val t.isLt).2 = k2_pay2 (xslice2 V c t) (if t.val % 5 = 0 then k2_pay1 else (outsAt2 V c (t.val - 1) (Nat.lt_of_le_of_lt (Nat.sub_le _ _) t.isLt)).2) (iblk2 V c 0 t) := by
  obtain ⟨n, hn⟩ := t
  have e := hcond2_0 ⟨n, hn⟩
  cases n with
  | zero => exact congrArg (k2_pay2 _ · _) ((ite_self _).trans (if_pos (Nat.zero_mod 5)).symm)
  | succ n => exact congrArg (k2_pay2 _ · _) (if_congr e rfl rfl)

theorem out2_step (c : Dev nD) (t : Fin cfg2.N) (h : t.val % 5 = 4) :
    (outsAt2 V c t.val t.isLt).1 = (outsAt2 V c t.val t.isLt).2 := rfl

end Cert.KernelIdeal.Hand

end
-- ==== Proof.Run.lean ====
import proofs.«421758_j64261300683140_3_alg».proof.Proof.R0
import proofs.«421758_j64261300683140_3_alg».proof.Proof.R1
import proofs.«421758_j64261300683140_3_alg».proof.Proof.R2
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

abbrev adm : (p : Fin 3) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev St (V : Dev nD → Valuation τ sig (Elt F)) (c : Dev nD) : sProp 𝕄 :=
  iprop(StableHlo.held (c : Thread nD τ) (Pipeline.ucRefs τ sig) (V c) ∗ R c)
abbrev DatAt (p : Fin 3) := (c : Dev nD) → Dat τ (Elt F) Unit ℕ (UR sig nD τ) ℕ (Pipeline.pin (pcfgs (F := F)) adm p) c
abbrev rd (W : Dev nD → Valuation τ sig (Elt F)) : (c : Dev nD) → (b : Ref sig .tc) → Buf (Elt F) ((c : Thread nD τ).loc b) := fun c b => W c b

variable (p : Fin 3) (lf : Pipeline.LaunchFacts (nD := nD) (τ := τ) cfgs p) (W : Dev nD → Valuation τ sig (Elt F))
  (D : DatAt (F := F) p) (pd : (p : Fin 3) → DatAt (F := F) p)

/-- The buffers after region `p` entered at `W`: its arrays at their final contents, every other buffer as entered. -/
def exitW (c : Dev nD) : Valuation τ sig (Elt F) :=
  Pipeline.withArrays (cfgs p).spec c (W c) fun w => (D c).arrAt w (cfgs p).N

include lf in
theorem exitW_arr (c : Dev nD) (w : Fin (cfgs p).W) :
    exitW p W D c (Proc.devRef .tc (Pipeline.arrRef (cfgs p).spec w)) = (D c).arrAt w (cfgs p).N :=
  Pipeline.withArrays_arr _ lf.win.arr_inj c _ _ w

theorem exitW_of_ne (c : Dev nD) (b : Ref sig .tc) (hb : ∀ w, Pipeline.arrRef (cfgs p).spec w ≠ b) :
    exitW p W D c (Proc.devRef .tc b) = W c (Proc.devRef .tc b) :=
  Pipeline.withArrays_of_ne _ c _ _ b hb

include lf in
/-- A buffer that is no output array of region `p` leaves it as it entered: an input array's final contents are its first. -/
theorem exitW_keep (hA : ∀ c w, (D c).A w = W c (Proc.devRef .tc (Pipeline.arrRef (cfgs p).spec w))) (c : Dev nD) (b : Ref sig .tc)
    (hb : ∀ w, Pipeline.arrRef (cfgs p).spec w = b → ((cfgs p).win w).isOut = false) :
    exitW p W D c (Proc.devRef .tc b) = W c (Proc.devRef .tc b) := by
  by_cases h : ∃ w, Pipeline.arrRef (cfgs p).spec w = b
  · obtain ⟨w, rfl⟩ := h
    exact (exitW_arr p lf W D c w).trans (((D c).arrAt_in w (hb w rfl) _).trans (hA c w))
  · exact exitW_of_ne p W D c b fun w e => h ⟨w, e⟩

set_option backward.isDefEq.respectTransparency.types false in
/-- Region `p` as a segment: entered with every unscoped buffer at `W`, left with them at `exitW`. -/
def reg (hb : ∀ c, BodyObligation (pd p c) defs₀ 𝒱₀ () Set.univ)
    (hA : ∀ c w, (pd p c).A w = W c (Proc.devRef .tc (Pipeline.arrRef (cfgs p).spec w)))
    (hi : ∀ c, (Pipeline.ΦA (cfgs p).spec c : sProp 𝕄) ⊢ (pd p c).Φ 0)
    (ho : ∀ c, (pd p c).Φ (Fin.last _) ⊢ (Pipeline.ΦA (cfgs p).spec c : sProp 𝕄))
    (hq : ∀ c w, (pd p c).q w = fullShare) (h0 : ∀ c t, (pd p c).owed t = 0) (hr : ∀ c x, x ∈ (pd p c).recorded 0) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := St W
  post := St (exitW p W (pd p))
  X c := iprop(∃ r, prngReg c r)
  Y c := iprop(∃ r, prngReg c r)
  Z c := Pipeline.unscopedRest (cfgs p).spec c (rd W c)
  hentry c := by
    have hsplit := Pipeline.arrays_of_unscopedBufs (p := p) (pcfgs (F := F)) adm pd lf.win lf.arr_whole c ((pd p c).share_full (hq c)) (rd W c) (hA c)
    rw [Pipeline.unscopedBufs_held] at hsplit
    unfold Pipeline.Dat.owesAt Pipeline.owesWithin
    rw [Pipeline.ownSems0_none, h0 c 0]
    iintro ⟨⟨Hub, Hp, %T, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    iexists T; isplitr; · ipureintro; exact fun x _ => Or.inl (hr c x)
    iexact HO
  hin c := by
    iintro ⟨Hp, -, Hr⟩
    iapply hi c
    unfold Pipeline.ΦA
    iframe
  hout c := by
    rw [Pipeline.ownSems0_none]
    iintro H
    ihave H' := ho c $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (rd W c) (rd (exitW p W (pd p)) c) ((pd p c).arrAt · (cfgs p).N)
      (fun w => (exitW_arr p lf W (pd p) c w).symm)
      (fun b hb => exitW_of_ne p W (pd p) c b fun w e => hb (Finset.mem_image.mpr ⟨w, Finset.mem_univ _, e⟩))
    rw [Pipeline.unscopedBufs_held] at hjoin
    unfold Pipeline.Dat.owesAt Pipeline.owesWithin
    rw [h0 c _]
    iintro ⟨Ha, ⟨%T, -, HO⟩, HY, Hrest⟩
    imodintro
    isplitl [Ha Hrest]
    · iapply hjoin; iframe
    isplitl [HY]; · iexact HY
    iexists T; iexact HO

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := rd (W1 m ρ)
def W2 : Dev nD → Valuation τ sig (Elt F) := exitW 0 (W1 m ρ) (dat0 (V1 m ρ))
theorem W2_arr (c : Dev nD) (w : Fin cfg0.W) :
    W2 m ρ c (Proc.devRef .tc (Pipeline.arrRef spec0 w)) = (dat0 (V1 m ρ) c).arrAt w cfg0.N := exitW_arr 0 launch0 _ _ c w
theorem W2_of_ne (c : Dev nD) (b : Ref sig .tc) (hb : ∀ w, Pipeline.arrRef spec0 w ≠ b) :
    W2 m ρ c (Proc.devRef .tc b) = W1 m ρ c (Proc.devRef .tc b) := exitW_of_ne 0 _ _ c b hb
abbrev V2 := rd (W2 m ρ)
def W3 : Dev nD → Valuation τ sig (Elt F) := exitW 1 (W2 m ρ) (dat1 (V2 m ρ))
theorem W3_arr (c : Dev nD) (w : Fin cfg1.W) :
    W3 m ρ c (Proc.devRef .tc (Pipeline.arrRef spec1 w)) = (dat1 (V2 m ρ) c).arrAt w cfg1.N := exitW_arr 1 launch1 _ _ c w
theorem W3_of_ne (c : Dev nD) (b : Ref sig .tc) (hb : ∀ w, Pipeline.arrRef spec1 w ≠ b) :
    W3 m ρ c (Proc.devRef .tc b) = W2 m ρ c (Proc.devRef .tc b) := exitW_of_ne 1 _ _ c b hb
abbrev V3 := rd (W3 m ρ)
def W4 : Dev nD → Valuation τ sig (Elt F) := exitW 2 (W3 m ρ) (dat2 (V3 m ρ))
abbrev W5 : Dev nD → Valuation τ sig (Elt F) := fun c => StableHlo.after hostOps3 (W4 m ρ c)

abbrev args : List (Ref sig .tc) := [main_arg0, main_arg1, main_arg2, main_arg3, main_arg4, main_arg5]

/-- No host operation writes an argument. -/
theorem host_keeps {b : Ref sig .tc} (hb : b ∈ args) (X : Valuation τ sig (Elt F)) :
    StableHlo.after hostOps0 X (Proc.devRef .tc b) = X (Proc.devRef .tc b)
      ∧ StableHlo.after hostOps3 X (Proc.devRef .tc b) = X (Proc.devRef .tc b) := by
  constructor <;> refine StableHlo.after_of_forall_not_mem _ _ (List.forall_iff_forall_mem.mp ?_) <;>
    simp only [hostOps0, hostOps3, List.Forall, StableHlo.nullary_writes, StableHlo.unary_writes, StableHlo.binary_writes, StableHlo.ternary_writes, Finset.mem_singleton] <;>
    (repeat' apply And.intro) <;> exact StableHlo.devRef_ne_of_ne (by rintro rfl; revert hb; decide)

/-- No argument is an output array of a region. -/
theorem args_in : ∀ p : Fin 3, ∀ b ∈ args, ∀ w, Pipeline.arrRef (cfgs p).spec w = b → ((cfgs p).win w).isOut = false := by decide

/-- An argument ends as launched: no host operation writes it and it is no region's output. -/
theorem W5_arg {b : Ref sig .tc} (hb : b ∈ args) (c : Dev nD) : W5 m ρ c (Proc.devRef .tc b) = m ((c : Thread nD τ).loc b) :=
  (host_keeps hb _).2.trans <| (exitW_keep 2 launch2 _ _ (A_eq2 _) c b (args_in 2 b hb)).trans <|
    (exitW_keep 1 launch1 _ _ (A_eq1 _) c b (args_in 1 b hb)).trans <|
    (exitW_keep 0 launch0 _ _ (A_eq0 _) c b (args_in 0 b hb)).trans (host_keeps hb _).1

def pdats : (p : Fin 3) → DatAt (F := F) p
  | ⟨0, _⟩ => dat0 (V1 m ρ)
  | ⟨1, _⟩ => dat1 (V2 m ρ)
  | ⟨2, _⟩ => dat2 (V3 m ρ)

abbrev hseg (ops : List (HloOp τ sig (Elt F))) (hsub : ops.Forall fun op => op.bufs ⊆ StableHlo.tcRefs τ sig)
    (W : Dev nD → Valuation τ sig (Elt F)) (hfresh : ops.Forall fun op => op.fresh = ∅) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def hs0 := hseg hostOps0 hostOps0_sub (W0 m ρ) (by simp only [List.Forall]; repeat' constructor)
def hs3 := hseg hostOps3 hostOps3_sub (W4 m ρ) (by simp only [List.Forall]; repeat' constructor)
def reg0 := reg 0 launch0 (W1 m ρ) (pdats m ρ) (body_obligation0 _) (A_eq0 _) (hin0 _) (hout0 _) (fun _ _ => rfl) (fun _ _ => rfl) fun _ _ => trivial
def reg1 := reg 1 launch1 (W2 m ρ) (pdats m ρ) (body_obligation1 _) (A_eq1 _) (fun _ => .rfl) (fun _ => .rfl) (fun _ _ => rfl) (fun _ _ => rfl) fun _ _ => trivial
def reg2 := reg 2 launch2 (W3 m ρ) (pdats m ρ) (body_obligation2 _) (A_eq2 _) (hin2 _) (hout2 _) (fun _ _ => rfl) (fun _ _ => rfl) fun _ _ => trivial

abbrev segs : List (Pipeline.Seg (pcfgs (F := F)) adm (pdats m ρ) () defs₀ 𝒱₀ L lv) :=
  [ .host (hs0 m ρ),
    .region (reg0 m ρ),
    .region (reg1 m ρ),
    .region (reg2 m ρ),
    .host (hs3 m ρ) ]

abbrev u₀ := initOf (Pipeline.cells cfgs cellOf_inj) (Pipeline.launchToks cfgs cellOf_inj)

set_option backward.isDefEq.respectTransparency.types false in
/-- Every weakly fair execution of @main terminates, and the final memory holds every unscoped buffer at `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [(main_chain c).trans (by chain_rfl : _ = Pipeline.Seg.run (segs m ρ))])
    (by simp only [segs, Pipeline.Seg.pipes_host, Pipeline.Seg.pipes_region, Pipeline.Seg.pipes_nil]; decide)
    (O₀ := 0) (hL := fun _ _ => rfl) (G := fun _ => (BI.emp : sProp 𝕄))
    (u₀ := u₀)
    (hu₀ := by
      rw [BI.bigSep_emp_const]; iintro Hu; imodintro
      isplitl [Hu]
      · iapply (show (ownU u₀ : sProp 𝕄) ⊢ BI.own (emb₁ u₀) from .rfl); iexact Hu
      iempintro)
    (T₀ := St (W0 m ρ))
    (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp] <;> iexists _ <;> iassumption)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      iframe)
    (hQ := fun s h c => h c)

/-- The result buffer ends at `W5`'s value and every argument array as launched. -/
theorem run_frame : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have k {b : Ref sig .tc} (hb : b ∈ args) (hs : ¬ (Proc.devRef .tc b : DevRef τ sig).isScoped) :
        r.2.mem ((c.tc : Thread nD τ).loc b) = m ((c.tc : Thread nD τ).loc b) := (h c _ (mem_uc b hs)).trans (W5_arg m ρ hb c)
    ⟨h c _ (mem_uc main_v0 (by decide)), k (by decide) (by decide), k (by decide) (by decide), k (by decide) (by decide),
      k (by decide) (by decide), k (by decide) (by decide), k (by decide) (by decide)⟩) (run m ρ)

/-- The result buffer at the end: the leading rows of what region 2 leaves in its output array. -/
theorem W5_main_v0 (c : Dev nD) :
    W5 m ρ c (Proc.devRef .tc main_v0)
      = extractStridedSlice S10000x128 ![0, 0] ((dat2 (V3 m ρ) c).arrAt 2 cfg2.N) slices_S10240x128_S10000x128_0_0 := by
  rw [← show W4 m ρ c (Proc.devRef .tc (Pipeline.arrRef spec2 2)) = (dat2 (V3 m ρ) c).arrAt 2 cfg2.N from exitW_arr 2 launch2 _ _ c 2]
  show StableHlo.after hostOps3 (W4 m ρ c) (Proc.devRef .tc main_v0) = _
  after_results
  rfl

end Cert.KernelIdeal.Hand

end
-- ==== Proof.Spec.lean ====
import Mathlib.Algebra.BigOperators.Group.Finset.Basic
import Mathlib.Algebra.BigOperators.Ring.Finset
import Mathlib.Algebra.BigOperators.Fin
import Mathlib.Data.Real.Basic
import Mathlib.Algebra.Order.Ring.Defs

namespace Cert.Spec

open Finset

variable {E N P d₀ d₁ d₂ : ℕ}

def mm {n a b : ℕ} (x : Fin n → Fin a → ℝ) (w : Fin a → Fin b → ℝ) (i : Fin n) (q : Fin b) : ℝ :=
  ∑ k, x i k * w k q

def relu {n a : ℕ} (x : Fin n → Fin a → ℝ) (i : Fin n) (q : Fin a) : ℝ := max (x i q) 0

def spmm {d : ℕ} (src dst : Fin E → Fin N) (val : Fin E → ℝ) (h : Fin N → Fin d → ℝ) (i : Fin N) (q : Fin d) : ℝ :=
  ∑ e, if dst e = i then val e * h (src e) q else 0

def gcn (src dst : Fin E → Fin N) (val : Fin E → ℝ) (feat : Fin N → Fin d₀ → ℝ) (W0 : Fin d₀ → Fin d₁ → ℝ)
    (W1 : Fin d₁ → Fin d₂ → ℝ) : Fin N → Fin d₂ → ℝ :=
  mm (spmm src dst val (relu (mm (spmm src dst val feat) W0))) W1

def adj (src dst : Fin E → Fin N) (val : Fin E → ℝ) (i j : Fin P) : ℝ :=
  ∑ e, if (dst e).val = i.val ∧ (src e).val = j.val then val e else 0

def pad {d : ℕ} (x : Fin N → Fin d → ℝ) (j : Fin P) (q : Fin d) : ℝ :=
  if h : j.val < N then x ⟨j.val, h⟩ q else 0

def dense (src dst : Fin E → Fin N) (val : Fin E → ℝ) (feat : Fin N → Fin d₀ → ℝ) (W0 : Fin d₀ → Fin d₁ → ℝ)
    (W1 : Fin d₁ → Fin d₂ → ℝ) : Fin P → Fin d₂ → ℝ :=
  mm (adj (P := P) src dst val) (mm (relu (mm (mm (adj (P := P) src dst val) (pad feat)) W0)) W1)

end Cert.Spec
-- ==== Proof.SpecMath.lean ====
import proofs.«421758_j64261300683140_3_alg».proof.Proof.Spec
import Mathlib.Data.EReal.Basic
import Mathlib.Data.EReal.Operations
import Mathlib.Algebra.BigOperators.Group.Finset.Basic
import Mathlib.Algebra.BigOperators.Ring.Finset
import Mathlib.Algebra.BigOperators.Fin
import Mathlib.Logic.Equiv.Fin.Basic
import Mathlib.Tactic.Ring
import Mathlib.Tactic.Linarith

namespace Cert.Spec

open Finset

variable {E N P d₀ d₁ d₂ : ℕ}

/-- Against a padded operand each edge contributes at its source's column only, and rows past `N` meet no edge. -/
theorem mm_adj_pad {d : ℕ} (hNP : N ≤ P) (src dst : Fin E → Fin N) (val : Fin E → ℝ) (X : Fin N → Fin d → ℝ) :
    mm (adj (P := P) src dst val) (pad X) = pad (spmm src dst val X) := by
  funext j q
  have key : ∀ e, ∑ k : Fin P, (if (dst e).val = j.val ∧ (src e).val = k.val then val e else 0) * pad X k q
      = if (dst e).val = j.val then val e * X (src e) q else 0 := fun e => by
    rw [Finset.sum_eq_single (⟨(src e).val, (src e).isLt.trans_le hNP⟩ : Fin P)]
    · by_cases h : (dst e).val = j.val <;> simp [h, pad]
    · intro k _ hk
      have : (src e).val ≠ k.val := fun h' => hk (Fin.ext h'.symm)
      simp [this]
    · simp
  simp only [mm, adj, Finset.sum_mul]
  rw [Finset.sum_comm]
  simp only [key]
  by_cases hj : j.val < N
  · simp [pad, hj, spmm, Fin.ext_iff]
  · have : ∀ e, (dst e).val ≠ j.val := fun e h => hj (h ▸ (dst e).isLt)
    simp [pad, hj, this]

theorem mm_pad {a b : ℕ} (H : Fin N → Fin a → ℝ) (W : Fin a → Fin b → ℝ) :
    mm (pad (P := P) H) W = pad (mm H W) := by
  funext j q
  by_cases hj : j.val < N <;> simp [mm, pad, hj]

theorem relu_pad {a : ℕ} (H : Fin N → Fin a → ℝ) :
    relu (pad (P := P) H) = pad (relu H) := by
  funext j q
  by_cases hj : j.val < N <;> simp [relu, pad, hj]

theorem spmm_mm {a b : ℕ} (src dst : Fin E → Fin N) (val : Fin E → ℝ) (H : Fin N → Fin a → ℝ)
    (W : Fin a → Fin b → ℝ) :
    spmm src dst val (mm H W) = mm (spmm src dst val H) W := by
  funext i q
  unfold spmm mm
  simp only [Finset.sum_mul]
  rw [Finset.sum_comm]
  refine Finset.sum_congr rfl (fun e _ => ?_)
  by_cases h : dst e = i
  · simp [h, Finset.mul_sum, mul_assoc]
  · simp [h]

theorem dense_eq_gcn {E N P d₀ d₁ d₂ : ℕ} (hNP : N ≤ P) (src dst : Fin E → Fin N) (val : Fin E → ℝ)
    (feat : Fin N → Fin d₀ → ℝ) (W0 : Fin d₀ → Fin d₁ → ℝ) (W1 : Fin d₁ → Fin d₂ → ℝ) (i : Fin N) (q : Fin d₂) :
    dense (P := P) src dst val feat W0 W1 ⟨i.val, lt_of_lt_of_le i.isLt hNP⟩ q = gcn src dst val feat W0 W1 i q := by
  unfold dense gcn
  rw [mm_adj_pad hNP, mm_pad, relu_pad, mm_pad, mm_adj_pad hNP, spmm_mm]
  simp [pad]

theorem sum_blocks {B L : ℕ} (f : ℕ → ℝ) :
    ∑ k : Fin B, ∑ j : Fin L, f (k.val * L + j.val) = ∑ j : Fin (B * L), f j.val := by
  rw [← Fintype.sum_prod_type' (f := fun (k : Fin B) (j : Fin L) => f (k.val * L + j.val))]
  refine Fintype.sum_equiv finProdFinEquiv _ _ (fun x => ?_)
  congr 1
  simp [finProdFinEquiv]
  ring

theorem coe_sum {α : Type*} (s : Finset α) (f : α → ℝ) :
    ((∑ i ∈ s, f i : ℝ) : EReal) = ∑ i ∈ s, (f i : EReal) :=
  map_sum (⟨⟨((↑) : ℝ → EReal), EReal.coe_zero⟩, EReal.coe_add⟩ : ℝ →+ EReal) f s

theorem coe_sub_self (a : ℝ) : (a : EReal) - (a : EReal) = 0 := by
  rw [← EReal.coe_sub, sub_self, EReal.coe_zero]

theorem coe_max (a b : ℝ) : ((max a b : ℝ) : EReal) = max (a : EReal) (b : EReal) :=
  EReal.coe_strictMono.monotone.map_max

theorem dot3_coe {K : ℕ} (a x : Fin K → ℝ) :
    ((∑ k, (a k : EReal) * (x k : EReal)) + ∑ k, (a k : EReal) * ((x k : EReal) - (x k : EReal)))
      + ∑ k, ((a k : EReal) - (a k : EReal)) * (x k : EReal) = ((∑ k, a k * x k : ℝ) : EReal) := by
  simp only [coe_sub_self, mul_zero, zero_mul, Finset.sum_const_zero, add_zero]
  rw [coe_sum]
  simp only [EReal.coe_mul]

end Cert.Spec
-- ==== Proof.KerMat.lean ====
import proofs.«421758_j64261300683140_3_alg».proof.Proof.SpecMath
import Idealize.ShloMosaic.Lib.ValueIdx
import Idealize.ShloMosaic.PureOps.Ideal.Laws

noncomputable section

namespace Cert.KernelIdeal.Hand

open Idealize.ShloMosaic Idealize.ShloMosaic.ValueIdx
open scoped BigOperators

-- A product of an M×K block with a K×N block added to zeros, at an entry: the block's row times the other's column.
theorem mm_apply {M K N : ℕ} {φ₁ φ₂ : FTy} (l : FVec Ideal ⟨2, ![M, K]⟩ φ₁) (r : FVec Ideal ⟨2, ![K, N]⟩ φ₂) (p : Fin M) (q : Fin N) :
    FloatOps.matmul (DotDims.plain M K N) none l r (constant ⟨2, ![M, N]⟩ .f32 0x00000000#32) (ix2 p q) = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  congr 2 <;> funext a <;> apply Fin.ext <;> match a with
    | ⟨0, _⟩ => first | rfl | exact hk
    | ⟨1, _⟩ => first | rfl | exact hk

-- A matrix at natural-number coordinates, zero outside its range.
def ext2 {m n : ℕ} (A : Fin m → Fin n → ℝ) (r c : ℕ) : ℝ := if h : r < m ∧ c < n then A ⟨r, h.1⟩ ⟨c, h.2⟩ else 0
theorem ext2_eq {m n : ℕ} (A : Fin m → Fin n → ℝ) (i : Fin m) (j : Fin n) : ext2 A i j = A i j := dif_pos ⟨i.isLt, j.isLt⟩

-- An array with real entries, read at an index whose coordinates are known as numbers.
theorem ext2_at {m n : ℕ} {f : (⟨2, ![m, n]⟩ : Shape).Idx → EReal} {A : Fin m → Fin n → ℝ}
    (h : ∀ i j, f (ix2 i j) = ((A i j : ℝ) : EReal)) (y : (⟨2, ![m, n]⟩ : Shape).Idx) {r c : ℕ} (h0 : (y 0).val = r) (h1 : (y 1).val = c) :
    f y = ((ext2 A r c : ℝ) : EReal) := by
  subst h0 h1
  exact (congrArg f (eq_ix2 y)).trans ((h (y 0) (y 1)).trans (congrArg (fun r : ℝ => (r : EReal)) (ext2_eq A (y 0) (y 1)).symm))

variable {C : ℕ} (A : Fin 10240 → Fin 10240 → ℝ) (X : Fin 10240 → Fin C → ℝ)

-- Row r of A against column q of X, over the first nb blocks of 2048 columns.
def accR (r nb : ℕ) (q : Fin C) : ℝ :=
  ∑ k' ∈ Finset.range nb, ∑ j : Fin 2048, ext2 A r (k' * 2048 + j.val) * ext2 X (k' * 2048 + j.val) q

-- Five blocks make the whole row against the whole column.
theorem accR_full (i : Fin 10240) (q : Fin C) : accR A X i 5 q = Cert.Spec.mm A X i q := by
  unfold accR Cert.Spec.mm
  rw [Finset.sum_range (fun k' => ∑ j : Fin 2048, ext2 A i (k' * 2048 + j.val) * ext2 X (k' * 2048 + j.val) q)]
  exact (Cert.Spec.sum_blocks (B := 5) (L := 2048) (fun j => ext2 A i j * ext2 X j q)).trans
    (Finset.sum_congr rfl fun j _ => by rw [ext2_eq, ext2_eq])

-- A point-indexed accumulator that starts each row block at zero and adds one column block's product per point holds, after point n, the partial sums over the first n % 5 + 1 column blocks: induction on the point.
theorem acc_blocks {N : ℕ} (o : (n : ℕ) → n < N → (⟨2, ![1024, C]⟩ : Shape).Idx → EReal) (z : (⟨2, ![1024, C]⟩ : Shape).Idx → EReal)
    (hz : ∀ p q, z (ix2 p q) = ((0 : ℝ) : EReal))
    (hstep : ∀ n (hn : n < N) (s : Fin 1024 → Fin C → ℝ),
      (∀ p q, (if n % 5 = 0 then z else o (n - 1) (Nat.lt_of_le_of_lt (Nat.sub_le _ _) hn)) (ix2 p q) = ((s p q : ℝ) : EReal)) →
      ∀ p q, o n hn (ix2 p q) = ((s p q + ∑ j : Fin 2048, ext2 A (n / 5 * 1024 + p.val) (n % 5 * 2048 + j.val) * ext2 X (n % 5 * 2048 + j.val) q : ℝ) : EReal)) :
    ∀ n (hn : n < N) (p : Fin 1024) (q : Fin C), o n hn (ix2 p q) = ((accR A X (n / 5 * 1024 + p.val) (n % 5 + 1) q : ℝ) : EReal) := by
  intro n
  induction n using Nat.strong_induction_on with
  | _ n ih =>
    intro hn p q
    by_cases h0 : n % 5 = 0
    · rw [hstep n hn (fun _ _ => 0) (fun p q => by rw [if_pos h0]; exact hz p q) p q]
      unfold accR
      rw [h0, Finset.sum_range_one, zero_add]
    · rw [hstep n hn (fun p q => accR A X ((n - 1) / 5 * 1024 + p.val) ((n - 1) % 5 + 1) q)
        (fun p q => by rw [if_neg h0]; exact ih (n - 1) (by omega) _ p q) p q,
        show (n - 1) / 5 = n / 5 by omega, show (n - 1) % 5 + 1 = n % 5 by omega]
      unfold accR
      rw [Finset.sum_range_succ]

end Cert.KernelIdeal.Hand

end
-- ==== Proof.KerVal0.lean ====
import proofs.«421758_j64261300683140_3_alg».proof.Proof.R0
import proofs.«421758_j64261300683140_3_alg».proof.Proof.KerMat
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.ValueIdx

theorem pay1_apply (p : Fin 1024) (q : Fin 256) :
    (k0_pay1 (F := Ideal) : S1024x256.Idx → EReal) (ix2 p q) = ((0 : ℝ) : EReal) := by
  unfold k0_pay1
  simp only [shapeCast_self, broadcast_apply]
  show Ideal.ofBits .f32 0x00000000#32 = _
  rw [Ideal.ofBits_zero_f32, EReal.coe_zero]

-- On real blocks the three partial products of the split are the plain product, added to what the accumulator held.
theorem pay2_apply (x : Vec Ideal S2048x256 .f32) (v8 : Vec Ideal S1024x256 .f32) (a : Vec Ideal S1024x2048 .f32)
    (xr : Fin 2048 → Fin 256 → ℝ) (s : Fin 1024 → Fin 256 → ℝ) (ar : Fin 1024 → Fin 2048 → ℝ)
    (hx : ∀ j q, (x : S2048x256.Idx → EReal) (ix2 j q) = ((xr j q : ℝ) : EReal))
    (hs : ∀ p q, (v8 : S1024x256.Idx → EReal) (ix2 p q) = ((s p q : ℝ) : EReal))
    (ha : ∀ p j, (a : S1024x2048.Idx → EReal) (ix2 p j) = ((ar p j : ℝ) : EReal))
    (p : Fin 1024) (q : Fin 256) :
    (k0_pay2 (F := Ideal) x v8 a : S1024x256.Idx → EReal) (ix2 p q) = ((s p q + ∑ j : Fin 2048, ar p j * xr j q : ℝ) : EReal) := by
  unfold k0_pay2
  simp only [shapeCast_self, matmul]
  erw [addf_apply, addf_apply, addf_apply, mm_apply, mm_apply, mm_apply]
  simp only [truncf_apply, subf_apply, hx, hs, ha]
  rw [Cert.Spec.dot3_coe (fun j => ar p j) (fun j => xr j q), ← EReal.coe_add]

-- The last step is the rectified product of the accumulator's row with the weights' column.
theorem pay3_apply (v31 : Vec Ideal S1024x256 .f32) (w : Vec Ideal S256x256 .f32)
    (s : Fin 1024 → Fin 256 → ℝ) (wr : Fin 256 → Fin 256 → ℝ)
    (hs : ∀ p k, (v31 : S1024x256.Idx → EReal) (ix2 p k) = ((s p k : ℝ) : EReal))
    (hw : ∀ k q, (w : S256x256.Idx → EReal) (ix2 k q) = ((wr k q : ℝ) : EReal))
    (p : Fin 1024) (q : Fin 256) :
    (k0_pay3 (F := Ideal) v31 w : S1024x256.Idx → EReal) (ix2 p q) = ((max (∑ k : Fin 256, s p k * wr k q) 0 : ℝ) : EReal) := by
  unfold k0_pay3
  simp only [matmul]
  erw [maximumf_apply, addf_apply, addf_apply, mm_apply, mm_apply, mm_apply]
  simp only [truncf_apply, subf_apply, broadcast_apply, hs, hw]
  rw [Cert.Spec.dot3_coe (fun k => s p k) (fun k => wr k q), Cert.Spec.coe_max, EReal.coe_zero]
  show max _ (Ideal.ofBits .f32 0x00000000#32) = _
  rw [Ideal.ofBits_zero_f32]

-- Point t is row block t / 5, column block t % 5.
theorem idx_facts0 : ∀ t : Fin cfg0.N,
    win0_0.index t (0 : Fin 2) = t.val / 5 ∧ win0_0.index t (1 : Fin 2) = t.val % 5
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 5 ∧ win0_3.index t (1 : Fin 2) = 0
    ∧ k0_off1 (grid0.coords t) (0 : Fin 2) = t.val % 5 * 2048 ∧ k0_off1 (grid0.coords t) (1 : Fin 2) = 0 :=
  (by decide +kernel : ∀ t : Fin grid0.N, _)

variable (V : (c : Dev nD) → (b : Ref sig .tc) → Buf (Elt Ideal) ((c : Thread nD τ).loc b)) (c : Dev nD)
  (A : Fin 10240 → Fin 10240 → ℝ) (X : Fin 10240 → Fin 256 → ℝ) (W : Fin 256 → Fin 256 → ℝ)
  (hA : ∀ (i j : Fin 10240), (V c main_call0_v14 : S10240x10240.Idx → EReal) (ix2 i j) = ((A i j : ℝ) : EReal))
  (hX : ∀ (j : Fin 10240) (k : Fin 256), (V c main_call0_v17 : S10240x256.Idx → EReal) (ix2 j k) = ((X j k : ℝ) : EReal))
  (hW : ∀ (k q : Fin 256), (V c main_arg4 : S256x256.Idx → EReal) (ix2 k q) = ((W k q : ℝ) : EReal))

include hA in
theorem ablk_apply (t : Fin cfg0.N) (p : Fin 1024) (j : Fin 2048) :
    (iblk0 V c 0 t : S1024x2048.Idx → EReal) (ix2 p j) = ((ext2 A (t.val / 5 * 1024 + p.val) (t.val % 5 * 2048 + j.val) : ℝ) : EReal) := by
  obtain ⟨e0, e1, -⟩ := idx_facts0 t
  show (V c main_call0_v14 : S10240x10240.Idx → EReal) (((cfg0.win 0).blk t).view.emb (ix2 p j)) = _
  exact ext2_at hA _ (by show win0_0.index t (0 : Fin 2) * 1024 + 1 * p.val = _; omega)
    (by show win0_0.index t (1 : Fin 2) * 2048 + 1 * j.val = _; omega)

include hX in
theorem xslice_apply (t : Fin cfg0.N) (j : Fin 2048) (q : Fin 256) :
    (xslice0 V c t : S2048x256.Idx → EReal) (ix2 j q) = ((ext2 X (t.val % 5 * 2048 + j.val) q.val : ℝ) : EReal) := by
  obtain ⟨-, -, e2, e3, -, -, -, -, e8, e9⟩ := idx_facts0 t
  show (V c main_call0_v17 : S10240x256.Idx → EReal) (((cfg0.win 1).blk t).view.emb
    ((Rect.unit (s := S10240x256) (k0_off1 (grid0.coords t)) S2048x256.size (k0_off1_inb (grid0.coords t))).idx (ix2 j q))) = _
  exact ext2_at hX _ (by show win0_1.index t (0 : Fin 2) * 10240 + 1 * (k0_off1 (grid0.coords t) (0 : Fin 2) + 1 * j.val) = _; omega)
    (by show win0_1.index t (1 : Fin 2) * 256 + 1 * (k0_off1 (grid0.coords t) (1 : Fin 2) + 1 * q.val) = _; omega)

include hW in
theorem wblk_apply (t : Fin cfg0.N) (k q : Fin 256) :
    (iblk0 V c 2 t : S256x256.Idx → EReal) (ix2 k q) = ((W k q : ℝ) : EReal) := by
  obtain ⟨-, -, -, -, e4, e5, -⟩ := idx_facts0 t
  show (V c main_arg4 : S256x256.Idx → EReal) (((cfg0.win 2).blk t).view.emb (ix2 k q)) = _
  rw [← ext2_eq W k q]
  exact ext2_at hW _ (by show win0_2.index t (0 : Fin 2) * 256 + 1 * k.val = _; omega)
    (by show win0_2.index t (1 : Fin 2) * 256 + 1 * q.val = _; omega)

include hA hX in
-- After point n the accumulator holds row 1024 (n / 5) + p of A against column q of X over the first n % 5 + 1 column blocks.
theorem acc_inv : ∀ (n : ℕ) (hn : n < cfg0.N) (p : Fin 1024) (q : Fin 256),
    ((outsAt0 V c n hn).2 : S1024x256.Idx → EReal) (ix2 p q) = ((accR A X (n / 5 * 1024 + p.val) (n % 5 + 1) q : ℝ) : EReal) :=
  acc_blocks A X (fun n hn => (outsAt0 V c n hn).2) (k0_pay1 (F := Ideal)) pay1_apply fun n hn s hs p q => by
    have hstep := scratch0_step V c ⟨n, hn⟩
    dsimp only at hstep
    rw [hstep]
    exact pay2_apply _ _ _ _ s _ (xslice_apply V c X hX ⟨n, hn⟩) hs (ablk_apply V c A hA ⟨n, hn⟩) p q

include hA hX hW in
-- At each row block's last point the block holds the rectified product of the whole row sums with the weights, and those blocks tile the array.
theorem val0 (i : Fin 10240) (q : Fin 256) :
    ((dat0 V c).arrAt 3 cfg0.N : S10240x256.Idx → EReal) (ix2 i q) = ((Cert.Spec.relu (Cert.Spec.mm (Cert.Spec.mm A X) W) i q : ℝ) : EReal) := by
  refine congrFun ((dat0 V c).arrAt_eq_of_cover 3
    (fun y : S10240x256.Idx => ((Cert.Spec.relu (Cert.Spec.mm (Cert.Spec.mm A X) W) (y 0) (y 1) : ℝ) : EReal))
    (fun t hf => ?_) fun y => ?_) (ix2 i q)
  · have h4 : t.val % 5 = 4 := (flush0_3 t).mp hf
    have hN : t.val < 50 := lt_of_lt_of_eq t.isLt N_0
    obtain ⟨-, -, -, -, -, -, e6, e7, -⟩ := idx_facts0 t
    show (cfg0.win 3).cut (grid0.coords t) ((dat0 V c).after 3 t) = _
    rw [after0_out, out0_step V c t h4]
    funext y
    obtain ⟨p, q, rfl⟩ : ∃ (p : Fin 1024) (q : Fin 256), y = ix2 p q := ⟨y 0, y 1, eq_ix2 y⟩
    have hp : p.val < 1024 := p.isLt
    refine (pay3_apply _ _ _ W (acc_inv V c A X hA hX t.val t.isLt) (wblk_apply V c W hW t) p q).trans ?_
    show _ = ((Cert.Spec.relu (Cert.Spec.mm (Cert.Spec.mm A X) W) ((((cfg0.win 3).blk t).view.emb (ix2 p q)) 0) ((((cfg0.win 3).blk t).view.emb (ix2 p q)) 1) : ℝ) : EReal)
    rw [show (((cfg0.win 3).blk t).view.emb (ix2 p q)) 0 = (⟨t.val / 5 * 1024 + p.val, by omega⟩ : Fin 10240) from
        Fin.ext (by show win0_3.index t (0 : Fin 2) * 1024 + 1 * p.val = t.val / 5 * 1024 + p.val; omega),
      show (((cfg0.win 3).blk t).view.emb (ix2 p q)) 1 = q from
        Fin.ext (by show win0_3.index t (1 : Fin 2) * 256 + 1 * q.val = q.val; omega), h4]
    exact congrArg (fun r : ℝ => ((max r 0 : ℝ) : EReal)) (Finset.sum_congr rfl fun k _ => by rw [← accR_full A X ⟨_, _⟩ k])
  · have h0 : (y 0).val < 10240 := (y 0).isLt
    have h1 : (y 1).val < 256 := (y 1).isLt
    have ht : (y 0).val / 1024 * 5 + 4 < cfg0.N := by rw [show cfg0.N = 50 from N_0]; omega
    obtain ⟨-, -, -, -, -, -, e6, e7, -⟩ := idx_facts0 ⟨_, ht⟩
    dsimp only at e6
    refine ⟨⟨_, ht⟩, (flush0_3 _).mpr (by dsimp only; omega), ?_⟩
    show y ∈ ((View.whole main_call0_v18).slice (win0_3.rect ⟨(y 0).val / 1024 * 5 + 4, ht⟩)).set
    rw [View.set_slice_whole, Rect.mem_set_unit]
    intro a
    match a with
    | ⟨0, _⟩ => show win0_3.index _ (0 : Fin 2) * 1024 ≤ (y 0).val ∧ (y 0).val < win0_3.index _ (0 : Fin 2) * 1024 + 1024; omega
    | ⟨1, _⟩ => show win0_3.index _ (1 : Fin 2) * 256 ≤ (y 1).val ∧ (y 1).val < win0_3.index _ (1 : Fin 2) * 256 + 256; omega

end Cert.KernelIdeal.Hand

end
-- ==== Proof.KerVal1.lean ====
import proofs.«421758_j64261300683140_3_alg».proof.Proof.R1
import proofs.«421758_j64261300683140_3_alg».proof.Proof.KerMat
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.ValueIdx

theorem hz1 : (![0, 0] : Fin 2 → Nat) = fun _ => 0 := by decide

-- On real blocks the low parts of the split are differences of a real with itself, so the three partial products are the plain product.
theorem out1_2_apply (x0 : Vec Ideal S1024x256 .f32) (x1 : Vec Ideal S256x128 .f32)
    (h : Fin 1024 → Fin 256 → ℝ) (w : Fin 256 → Fin 128 → ℝ)
    (hx0 : ∀ p k, x0 (ix2 p k) = ((h p k : ℝ) : EReal)) (hx1 : ∀ k q, x1 (ix2 k q) = ((w k q : ℝ) : EReal))
    (p : Fin 1024) (q : Fin 128) :
    out1_2 x0 x1 (ix2 p q) = ((∑ k, h p k * w k q : ℝ) : EReal) := by
  unfold out1_2
  rw [View.canon_unit_zero hz1]
  simp only [View.ld_unit_zero (S := S1024x256) hz1, View.ld_unit_zero (S := S256x128) hz1]
  unfold k1_pay1
  simp only [shapeCast_self, matmul]
  erw [addf_apply, addf_apply, mm_apply, mm_apply, mm_apply]
  simp only [truncf_apply, subf_apply, hx0, hx1]
  exact Cert.Spec.dot3_coe (fun k => h p k) (fun k => w k q)

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b)) (c : Dev nD)
  (H : Fin 10240 → Fin 256 → ℝ) (W : Fin 256 → Fin 128 → ℝ)
  (hH : ∀ (i : Fin 10240) (k : Fin 256), (V c main_call0_v18 : S10240x256.Idx → EReal) (ix2 i k) = ((H i k : ℝ) : EReal))
  (hW : ∀ (k : Fin 256) (q : Fin 128), (V c main_arg5 : S256x128.Idx → EReal) (ix2 k q) = ((W k q : ℝ) : EReal))

include hH hW in
-- Block t of the result is rows 1024 t … 1024 t + 1023 of the activations times the weights, and the ten blocks tile the array.
theorem val1 (i : Fin 10240) (q : Fin 128) :
    ((dat1 V c).arrAt 2 cfg1.N : S10240x128.Idx → EReal) (ix2 i q) = ((Cert.Spec.mm H W i q : ℝ) : EReal) := by
  refine congrFun ((dat1 V c).arrAt_eq_of_cover 2 (fun y : S10240x128.Idx => ((Cert.Spec.mm H W (y 0) (y 1) : ℝ) : EReal))
    (fun t _ => ?_) fun y => ?_) (ix2 i q)
  · obtain ⟨e0, e1, e2, e3, e4, e5⟩ := idx_facts1 t
    have ht : t.val < 10 := lt_of_lt_of_eq t.isLt N_1
    show (cfg1.win 2).cut (grid1.coords t) ((dat1 V c).after 2 t) = _
    rw [after1_out]
    funext j
    obtain ⟨p, q, rfl⟩ : ∃ (p : Fin 1024) (q : Fin 128), j = ix2 p q := ⟨j 0, j 1, eq_ix2 j⟩
    have hp : p.val < 1024 := p.isLt
    refine (out1_2_apply _ _ (fun p k => ext2 H (t.val * 1024 + p.val) k) W (fun p k => ?_) (fun k q => ?_) p q).trans ?_
    · show (V c main_call0_v18 : S10240x256.Idx → EReal) (((cfg1.win 0).blk t).view.emb (ix2 p k)) = _
      exact ext2_at hH _ (by show win1_0.index t (0 : Fin 2) * 1024 + 1 * p.val = _; omega)
        (by show win1_0.index t (1 : Fin 2) * 256 + 1 * k.val = _; omega)
    · show (V c main_arg5 : S256x128.Idx → EReal) (((cfg1.win 1).blk t).view.emb (ix2 k q)) = _
      rw [← ext2_eq W k q]
      exact ext2_at hW _ (by show win1_1.index t (0 : Fin 2) * 256 + 1 * k.val = _; omega)
        (by show win1_1.index t (1 : Fin 2) * 128 + 1 * q.val = _; omega)
    · show _ = ((Cert.Spec.mm H W ((((cfg1.win 2).blk t).view.emb (ix2 p q)) 0) ((((cfg1.win 2).blk t).view.emb (ix2 p q)) 1) : ℝ) : EReal)
      rw [show (((cfg1.win 2).blk t).view.emb (ix2 p q)) 0 = (⟨t.val * 1024 + p.val, by omega⟩ : Fin 10240) from
          Fin.ext (by show win1_2.index t (0 : Fin 2) * 1024 + 1 * p.val = t.val * 1024 + p.val; omega),
        show (((cfg1.win 2).blk t).view.emb (ix2 p q)) 1 = q from
          Fin.ext (by show win1_2.index t (1 : Fin 2) * 128 + 1 * q.val = q.val; omega)]
      exact congrArg (fun r : ℝ => (r : EReal)) (Finset.sum_congr rfl fun k _ => by rw [← ext2_eq H ⟨_, _⟩ k])
  · have h0 : (y 0).val < 10240 := (y 0).isLt
    have h1 : (y 1).val < 128 := (y 1).isLt
    have ht : (y 0).val / 1024 < cfg1.N := by rw [show cfg1.N = 10 from N_1]; omega
    obtain ⟨-, -, -, -, e4, e5⟩ := idx_facts1 ⟨_, ht⟩
    dsimp only at e4
    refine ⟨⟨_, ht⟩, flush1_2 _, ?_⟩
    show y ∈ ((View.whole main_call0_v19).slice (win1_2.rect ⟨(y 0).val / 1024, ht⟩)).set
    rw [View.set_slice_whole, Rect.mem_set_unit]
    intro a
    match a with
    | ⟨0, _⟩ => show win1_2.index _ (0 : Fin 2) * 1024 ≤ (y 0).val ∧ (y 0).val < win1_2.index _ (0 : Fin 2) * 1024 + 1024; omega
    | ⟨1, _⟩ => show win1_2.index _ (1 : Fin 2) * 128 ≤ (y 1).val ∧ (y 1).val < win1_2.index _ (1 : Fin 2) * 128 + 128; omega

end Cert.KernelIdeal.Hand

end
-- ==== Proof.KerVal2.lean ====
import proofs.«421758_j64261300683140_3_alg».proof.Proof.R2
import proofs.«421758_j64261300683140_3_alg».proof.Proof.KerMat
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)
  (A : Fin 10240 → Fin 10240 → ℝ) (Y : Fin 10240 → Fin 128 → ℝ)
  (hA : ∀ (i j : Fin 10240), (V c main_call0_v14 : S10240x10240.Idx → EReal) (ix2 i j) = ((A i j : ℝ) : EReal))
  (hY : ∀ (j : Fin 10240) (q : Fin 128), (V c main_call0_v19 : S10240x128.Idx → EReal) (ix2 j q) = ((Y j q : ℝ) : EReal))

namespace Reg2

theorem pay1_apply (p : Fin 1024) (q : Fin 128) :
    (k2_pay1 (F := Ideal) : S1024x128.Idx → EReal) (ix2 p q) = ((0 : ℝ) : EReal) := by
  unfold k2_pay1
  (try dsimp only)
  rw [shapeCast_self]
  show Ideal.ofBits .f32 0x00000000#32 = _
  rw [Ideal.ofBits_zero_f32, EReal.coe_zero]

-- On real blocks the three partial products of the split are the plain product, added to what the accumulator held.
theorem pay2_apply (x : Vec Ideal S2048x128 .f32) (v8 : Vec Ideal S1024x128 .f32) (a : Vec Ideal S1024x2048 .f32)
    (xr : Fin 2048 → Fin 128 → ℝ) (s : Fin 1024 → Fin 128 → ℝ) (ar : Fin 1024 → Fin 2048 → ℝ)
    (hx : ∀ j q, (x : S2048x128.Idx → EReal) (ix2 j q) = ((xr j q : ℝ) : EReal))
    (hs : ∀ p q, (v8 : S1024x128.Idx → EReal) (ix2 p q) = ((s p q : ℝ) : EReal))
    (ha : ∀ p j, (a : S1024x2048.Idx → EReal) (ix2 p j) = ((ar p j : ℝ) : EReal))
    (p : Fin 1024) (q : Fin 128) :
    (k2_pay2 (F := Ideal) x v8 a : S1024x128.Idx → EReal) (ix2 p q) = ((s p q + ∑ j : Fin 2048, ar p j * xr j q : ℝ) : EReal) := by
  unfold k2_pay2
  (try dsimp only)
  simp only [shapeCast_self, matmul]
  erw [addf_apply, addf_apply, addf_apply, mm_apply, mm_apply, mm_apply]
  simp only [truncf_apply, subf_apply, hx, hs, ha]
  rw [Cert.Spec.dot3_coe (fun j => ar p j) (fun j => xr j q), ← EReal.coe_add]

-- Point t is row block t / 5, column block t % 5.
theorem idx_facts2 : ∀ t : Fin cfg2.N, win2_0.index t (0 : Fin 2) = t.val / 5
    ∧ win2_0.index t (1 : Fin 2) = t.val % 5
    ∧ win2_1.index t (0 : Fin 2) = 0
    ∧ win2_1.index t (1 : Fin 2) = 0
    ∧ win2_2.index t (0 : Fin 2) = t.val / 5
    ∧ win2_2.index t (1 : Fin 2) = 0
    ∧ k2_off1 (grid2.coords t) (0 : Fin 2) = t.val % 5 * 2048
    ∧ k2_off1 (grid2.coords t) (1 : Fin 2) = 0 :=
  (by decide +kernel : ∀ t : Fin grid2.N, _)

include hA in
theorem ablk_apply (t : Fin cfg2.N) (p : Fin 1024) (j : Fin 2048) :
    (iblk2 V c 0 t : S1024x2048.Idx → EReal) (ix2 p j) = ((ext2 A (t.val / 5 * 1024 + p.val) (t.val % 5 * 2048 + j.val) : ℝ) : EReal) := by
  obtain ⟨e0, e1, -⟩ := idx_facts2 t
  show (V c main_call0_v14 : S10240x10240.Idx → EReal) (((cfg2.win 0).blk t).view.emb (ix2 p j)) = _
  exact ext2_at hA _ (by show win2_0.index t (0 : Fin 2) * 1024 + 1 * p.val = _; omega)
    (by show win2_0.index t (1 : Fin 2) * 2048 + 1 * j.val = _; omega)

include hY in
theorem xslice_apply (t : Fin cfg2.N) (j : Fin 2048) (q : Fin 128) :
    (xslice2 V c t : S2048x128.Idx → EReal) (ix2 j q) = ((ext2 Y (t.val % 5 * 2048 + j.val) q.val : ℝ) : EReal) := by
  obtain ⟨-, -, e2, e3, -, -, e6, e7⟩ := idx_facts2 t
  show (V c main_call0_v19 : S10240x128.Idx → EReal) (((cfg2.win 1).blk t).view.emb
    ((Rect.unit (s := S10240x128) (k2_off1 (grid2.coords t)) S2048x128.size (k2_off1_inb (grid2.coords t))).idx (ix2 j q))) = _
  exact ext2_at hY _ (by show win2_1.index t (0 : Fin 2) * 10240 + 1 * (k2_off1 (grid2.coords t) (0 : Fin 2) + 1 * j.val) = _; omega)
    (by show win2_1.index t (1 : Fin 2) * 128 + 1 * (k2_off1 (grid2.coords t) (1 : Fin 2) + 1 * q.val) = _; omega)

include hA hY in
-- After point n the accumulator holds row 1024 (n / 5) + p of A against column q of Y over the first n % 5 + 1 column blocks.
theorem acc_eq : ∀ (n : ℕ) (h : n < cfg2.N) (p : Fin 1024) (q : Fin 128),
    ((outsAt2 V c n h).2 : S1024x128.Idx → EReal) (ix2 p q) = ((accR A Y (n / 5 * 1024 + p.val) (n % 5 + 1) q : ℝ) : EReal) :=
  acc_blocks A Y (fun n h => (outsAt2 V c n h).2) (k2_pay1 (F := Ideal)) pay1_apply fun n h s hs p q => by
    have hstep := scratch2_step V c ⟨n, h⟩
    dsimp only at hstep
    rw [hstep]
    exact pay2_apply _ _ _ _ s _ (xslice_apply V c Y hY ⟨n, h⟩) hs (ablk_apply V c A hA ⟨n, h⟩) p q

end Reg2

include hA hY in
-- At each row block's last point the block holds the whole row against the whole column, and those blocks tile the array.
theorem val2 (i : Fin 10240) (q : Fin 128) :
    ((dat2 V c).arrAt 2 cfg2.N : S10240x128.Idx → EReal) (ix2 i q) = ((Cert.Spec.mm A Y i q : ℝ) : EReal) := by
  refine congrFun ((dat2 V c).arrAt_eq_of_cover 2 (fun y : S10240x128.Idx => ((Cert.Spec.mm A Y (y 0) (y 1) : ℝ) : EReal))
    (fun t hf => ?_) fun y => ?_) (ix2 i q)
  · have h4 : t.val % 5 = 4 := (flush2_2 t).mp hf
    have hN : t.val < 50 := lt_of_lt_of_eq t.isLt N_2
    obtain ⟨-, -, -, -, e4, e5, -⟩ := Reg2.idx_facts2 t
    show (cfg2.win 2).cut (grid2.coords t) ((dat2 V c).after 2 t) = _
    rw [after2_out, out2_step V c t h4]
    funext y
    obtain ⟨p, q, rfl⟩ : ∃ (p : Fin 1024) (q : Fin 128), y = ix2 p q := ⟨y 0, y 1, eq_ix2 y⟩
    have hp : p.val < 1024 := p.isLt
    refine (Reg2.acc_eq V c A Y hA hY t.val t.isLt p q).trans ?_
    show _ = ((Cert.Spec.mm A Y ((((cfg2.win 2).blk t).view.emb (ix2 p q)) 0) ((((cfg2.win 2).blk t).view.emb (ix2 p q)) 1) : ℝ) : EReal)
    rw [show (((cfg2.win 2).blk t).view.emb (ix2 p q)) 0 = (⟨t.val / 5 * 1024 + p.val, by omega⟩ : Fin 10240) from
        Fin.ext (by show win2_2.index t (0 : Fin 2) * 1024 + 1 * p.val = t.val / 5 * 1024 + p.val; omega),
      show (((cfg2.win 2).blk t).view.emb (ix2 p q)) 1 = q from
        Fin.ext (by show win2_2.index t (1 : Fin 2) * 128 + 1 * q.val = q.val; omega), h4]
    exact congrArg (fun r : ℝ => (r : EReal)) (accR_full A Y ⟨_, _⟩ q)
  · have h0 : (y 0).val < 10240 := (y 0).isLt
    have h1 : (y 1).val < 128 := (y 1).isLt
    have ht : (y 0).val / 1024 * 5 + 4 < cfg2.N := by rw [show cfg2.N = 50 from N_2]; omega
    obtain ⟨-, -, -, -, e4, e5, -⟩ := Reg2.idx_facts2 ⟨_, ht⟩
    dsimp only at e4
    refine ⟨⟨_, ht⟩, (flush2_2 _).mpr (by dsimp only; omega), ?_⟩
    show y ∈ ((View.whole main_call0_v20).slice (win2_2.rect ⟨(y 0).val / 1024 * 5 + 4, ht⟩)).set
    rw [View.set_slice_whole, Rect.mem_set_unit]
    intro a
    match a with
    | ⟨0, _⟩ => show win2_2.index _ (0 : Fin 2) * 1024 ≤ (y 0).val ∧ (y 0).val < win2_2.index _ (0 : Fin 2) * 1024 + 1024; omega
    | ⟨1, _⟩ => show win2_2.index _ (1 : Fin 2) * 128 ≤ (y 1).val ∧ (y 1).val < win2_2.index _ (1 : Fin 2) * 128 + 128; omega

end Cert.KernelIdeal.Hand

end
-- ==== Proof.Inputs.lean ====
import Idealize.ShloMosaic.PureOps.Ideal
import Idealize.ShloMosaic.Lib.ValueIdx
import Idealize.ShloMosaic.Lib.Affine
import Mathlib.Data.EReal.Basic

noncomputable section

namespace Cert.Inputs

open Idealize.ShloMosaic Idealize.ShloMosaic.ValueIdx

/-- A word that is non-negative as a signed integer is kept by the negative-index wrap. -/
theorem select_slt_zero {a : BitVec 32} (b : BitVec 32) (h : 0 ≤ a.toInt) :
    Scalar.select (IntOp.cmpi .slt a 0#32) b a = a := by
  rw [eq_zero_of_ne_one fun e => absurd (IntOp.cmpi_slt.1 e) (by simpa using h), select_zero]

structure RealInputs
    (x0 : (⟨2, ![10000, 256]⟩ : Shape).Idx → EReal) (x1 x2 : IVec (⟨1, ![320000]⟩ : Shape) 32)
    (x3 : (⟨1, ![320000]⟩ : Shape).Idx → EReal) (x4 : (⟨2, ![256, 256]⟩ : Shape).Idx → EReal)
    (x5 : (⟨2, ![256, 128]⟩ : Shape).Idx → EReal) where
  feat : Fin 10000 → Fin 256 → ℝ
  val : Fin 320000 → ℝ
  W0 : Fin 256 → Fin 256 → ℝ
  W1 : Fin 256 → Fin 128 → ℝ
  src : Fin 320000 → Fin 10000
  dst : Fin 320000 → Fin 10000
  hfeat : ∀ (i : Fin 10000) (q : Fin 256), x0 (ix2 i q) = ((feat i q : ℝ) : EReal)
  hval : ∀ e : Fin 320000, x3 (ix1 e) = ((val e : ℝ) : EReal)
  hW0 : ∀ (k : Fin 256) (q : Fin 256), x4 (ix2 k q) = ((W0 k q : ℝ) : EReal)
  hW1 : ∀ (k : Fin 256) (q : Fin 128), x5 (ix2 k q) = ((W1 k q : ℝ) : EReal)
  hsrc : ∀ e : Fin 320000, (x1 (ix1 e)).toInt = ((src e).val : ℤ)
  hdst : ∀ e : Fin 320000, (x2 (ix1 e)).toInt = ((dst e).val : ℤ)

end Cert.Inputs

end
-- ==== Proof.LibScatterSet.lean ====
import Idealize.ShloMosaic.PureOps.ShapeOps

noncomputable section

namespace Cert.ScatterSet

open Idealize.ShloMosaic

variable {α : Type} {s si u : Shape} {w : Nat}

/-- An update lands at `i` exactly when start plus window coordinate is `i`'s coordinate on every axis. -/
theorem resultIdx?_eq_some_iff (d : ScatterDims s si u) (idx : IVec si w) (j : u.Idx) (i : s.Idx) :
    d.resultIdx? j idx = some i ↔ ∀ a, d.start j idx a + (d.window j a : Int) = ((i a).val : Int) := by
  unfold ScatterDims.resultIdx?
  split
  · rename_i h
    rw [Option.some.injEq]
    refine ⟨fun e a => ?_, fun e => funext fun a => Fin.ext ?_⟩
    · subst e
      have := h a
      show _ = (((d.start j idx a + (d.window j a : Int)).toNat : Nat) : Int)
      omega
    · have := e a
      show (d.start j idx a + (d.window j a : Int)).toNat = (i a).val
      omega
  · rename_i h
    refine ⟨(nomatch ·), fun e => absurd (fun a => ?_) h⟩
    have := e a
    have := (i a).isLt
    omega

private def step (d : ScatterDims s si u) (idx : IVec si w) (upd : u.Idx → α)
    (r : s.Idx → α) (n : Fin u.numel) : s.Idx → α :=
  match d.resultIdx? (u.rowMajor.symm n) idx with
  | some i => fun i' => if i' = i then upd (u.rowMajor.symm n) else r i'
  | none => r

private theorem scatter_eq_foldl (d : ScatterDims s si u) (x : s.Idx → α) (idx : IVec si w)
    (upd : u.Idx → α) :
    Host.scatter d (fun _ v => v) x idx upd = (List.finRange u.numel).foldl (step d idx upd) x :=
  rfl

private theorem step_apply (d : ScatterDims s si u) (idx : IVec si w) (upd : u.Idx → α)
    (r : s.Idx → α) (n : Fin u.numel) (i : s.Idx) :
    step d idx upd r n i
      = if d.resultIdx? (u.rowMajor.symm n) idx = some i then upd (u.rowMajor.symm n) else r i := by
  unfold step
  cases d.resultIdx? (u.rowMajor.symm n) idx with
  | none => simp
  | some k => simp only [Option.some.injEq, @eq_comm _ k i]

private theorem foldl_miss (d : ScatterDims s si u) (idx : IVec si w) (upd : u.Idx → α)
    (i : s.Idx) (l : List (Fin u.numel)) (x : s.Idx → α)
    (h : ∀ n ∈ l, d.resultIdx? (u.rowMajor.symm n) idx ≠ some i) :
    l.foldl (step d idx upd) x i = x i := by
  induction l generalizing x with
  | nil => rfl
  | cons a l ih =>
    rw [List.foldl_cons, ih _ fun n hn => h n (List.mem_cons_of_mem _ hn), step_apply,
      if_neg (h a (List.mem_cons_self ..))]

private theorem foldl_hit (d : ScatterDims s si u) (idx : IVec si w) (upd : u.Idx → α)
    (i : s.Idx) (j : u.Idx) (hj : d.resultIdx? j idx = some i)
    (huniq : ∀ j' : u.Idx, d.resultIdx? j' idx = some i → j' = j)
    (l : List (Fin u.numel)) (x : s.Idx → α) (hmem : u.rowMajor j ∈ l) :
    l.foldl (step d idx upd) x i = upd j := by
  induction l generalizing x with
  | nil => cases hmem
  | cons a l ih =>
    rw [List.foldl_cons]
    by_cases hl : u.rowMajor j ∈ l
    · exact ih _ hl
    · obtain rfl : a = u.rowMajor j := ((List.mem_cons.mp hmem).resolve_right hl).symm
      rw [foldl_miss d idx upd i l _ fun n hn hn' => hl (by rw [← huniq _ hn', Equiv.apply_symm_apply]; exact hn),
        step_apply, Equiv.symm_apply_apply, if_pos hj]

theorem scatter_set_hit (d : ScatterDims s si u) (x : s.Idx → α) (idx : IVec si w) (upd : u.Idx → α)
    (i : s.Idx) (j : u.Idx) (hj : d.resultIdx? j idx = some i)
    (huniq : ∀ j' : u.Idx, d.resultIdx? j' idx = some i → j' = j) :
    Host.scatter d (fun _ v => v) x idx upd i = upd j := by
  rw [scatter_eq_foldl]
  exact foldl_hit d idx upd i j hj huniq _ x (List.mem_finRange _)

theorem scatter_set_miss (d : ScatterDims s si u) (x : s.Idx → α) (idx : IVec si w) (upd : u.Idx → α)
    (i : s.Idx) (hmiss : ∀ j : u.Idx, d.resultIdx? j idx ≠ some i) :
    Host.scatter d (fun _ v => v) x idx upd i = x i := by
  rw [scatter_eq_foldl]
  exact foldl_miss d idx upd i _ x (fun n _ => hmiss _)

end Cert.ScatterSet

end
-- ==== Proof.HostVal.lean ====
import proofs.«421758_j64261300683140_3_alg».proof.Proof.Gen.KernelIdeal.Launch
import proofs.«421758_j64261300683140_3_alg».proof.Proof.Spec
import proofs.«421758_j64261300683140_3_alg».proof.Proof.SpecMath
import proofs.«421758_j64261300683140_3_alg».proof.Proof.Inputs
import proofs.«421758_j64261300683140_3_alg».proof.Proof.LibScatterSet
import Idealize.ShloMosaic.Lib.ValueIdxRank1
import Idealize.ShloMosaic.Lib.ValueIdx
import Idealize.ShloMosaic.Lib.Pipeline.Value
import Idealize.ShloMosaic.Lib.StableHlo.Run
import Idealize.ShloMosaic.PureOps.Ideal.Laws
import Mathlib.Data.EReal.Basic
import Mathlib.Data.EReal.Operations
import Mathlib.Algebra.BigOperators.Group.Finset.Basic
import Mathlib.Tactic.Linarith

noncomputable section

namespace Cert.HostVal

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

abbrev W1v (b : Ref sig .tc) := StableHlo.after (hostOps0 (F := Ideal)) (fun b => m (c, b)) (Proc.devRef .tc b)

namespace Adj

section PointScatterAdd

abbrev pointScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

variable {N M R w : Nat} (wf : ScatterDims.WF ⟨2, ![N, M]⟩ ⟨2, ![R, 2]⟩ ⟨1, ![R]⟩ [] [0, 1] [0, 1] 1)
  (idx : IVec ⟨2, ![R, 2]⟩ w) (e : Fin R)

theorem ps_window (a : Fin 2) : (pointScatterDims N M R wf).window (ix1 e) a = 0 := by
  unfold ScatterDims.window
  rw [dif_neg]
  show a ∉ (List.finRange 2).filter (fun a => a ∉ [(0 : Fin 2), 1])
  revert a; decide

/-- On either axis the start is the index word in that column of row `e`. -/
theorem ps_start (a : Fin 2) : (pointScatterDims N M R wf).start (ix1 e) idx a = (idx (ix2 e a)).toInt := by
  have ha : a ∈ ([0, 1] : List (Fin 2)) := by revert a; decide
  unfold ScatterDims.start
  rw [dif_pos ha]
  congr 2
  funext b
  match a, b with
  | ⟨0, _⟩, ⟨0, _⟩ => rfl
  | ⟨0, _⟩, ⟨1, _⟩ => rfl
  | ⟨1, _⟩, ⟨0, _⟩ => rfl
  | ⟨1, _⟩, ⟨1, _⟩ => rfl

theorem pointScatter_resultIdx_iff (i : Fin N) (j : Fin M) :
    (pointScatterDims N M R wf).resultIdx? (ix1 e) idx = some (ix2 i j)
      ↔ (idx (ix2 e (0 : Fin 2))).toInt = (i.val : Int) ∧ (idx (ix2 e (1 : Fin 2))).toInt = (j.val : Int) := by
  rw [Cert.ScatterSet.resultIdx?_eq_some_iff, Fin.forall_fin_two, ps_start, ps_start, ps_window, ps_window]
  show _ + ((0 : Nat) : Int) = (i.val : Int) ∧ _ + ((0 : Nat) : Int) = (j.val : Int) ↔ _
  omega

theorem pointScatterAdd_apply
    (x : (⟨2, ![N, M]⟩ : Shape).Idx → EReal) (upd : (⟨1, ![R]⟩ : Shape).Idx → EReal) (i : Fin N) (j : Fin M) :
    Ideal.hostScatterAdd (pointScatterDims N M R wf) x idx upd (ix2 i j)
      = x (ix2 i j) + ∑ e : Fin R,
          if (idx (ix2 e (0 : Fin 2))).toInt = (i.val : Int) ∧ (idx (ix2 e (1 : Fin 2))).toInt = (j.val : Int)
          then upd (ix1 e) else 0 := by
  show x (ix2 i j) + ∑ e ∈ Finset.univ.filter
      (fun e => (pointScatterDims N M R wf).resultIdx? e idx = some (ix2 i j)), upd e = _
  rw [Finset.sum_filter, ← Equiv.sum_comp (idxEquiv1 (n := R)).symm]
  exact congrArg _ (Finset.sum_congr rfl fun e _ => if_congr (pointScatter_resultIdx_iff wf idx e i j) rfl rfl)

end PointScatterAdd

abbrev wrap (x : IVec S320000 32) : IVec S320000 32 :=
  select (cmpi .slt x (broadcastInDim S320000 ![] Facts₀.bcast_S_S320000 (constantI S_ 32 0#32)))
    (addi x (broadcastInDim S320000 ![] Facts₀.bcast_S_S320000 (constantI S_ 32 10240#32))) x

abbrev idxPairs (src dst : IVec S320000 32) : IVec S320000x2 32 :=
  concatenate S320000x2 1
    [⟨S320000x1, broadcastInDim S320000x1 ![0] Facts₀.bcast_S320000_S320000x1_0 (wrap dst)⟩,
     ⟨S320000x1, broadcastInDim S320000x1 ![0] Facts₀.bcast_S320000_S320000x1_0 (wrap src)⟩]
    Facts₀.concatenates_S320000x1_S320000x1_S320000x2_d1

theorem wrap_apply (x : IVec S320000 32) (e : Fin 320000) (h : 0 ≤ (x (ix1 e)).toInt) : wrap x (ix1 e) = x (ix1 e) :=
  Cert.Inputs.select_slt_zero _ h

theorem idxPairs_apply0 (src dst : IVec S320000 32) (e : Fin 320000) :
    idxPairs src dst (ix2 e (0 : Fin 2)) = wrap dst (ix1 e) := by
  unfold idxPairs
  rw [concatenate_pair_apply_left (s₁ := S320000x1) (s₂ := S320000x1) (t := S320000x2) (1 : Fin 2) _ _ _ (ix2 e (0 : Fin 2)) rfl (ix2 e (0 : Fin 1))
    (fun b => by match b with | ⟨0, _⟩ => rfl | ⟨1, _⟩ => rfl)]
  exact broadcastInDim_apply _ _ _ _ (ix1 e) (fun a => by match a with | ⟨0, _⟩ => rfl)

theorem idxPairs_apply1 (src dst : IVec S320000 32) (e : Fin 320000) :
    idxPairs src dst (ix2 e (1 : Fin 2)) = wrap src (ix1 e) := by
  unfold idxPairs
  rw [concatenate_pair_apply_right (s₁ := S320000x1) (s₂ := S320000x1) (t := S320000x2) (1 : Fin 2) _ _ _ (ix2 e (1 : Fin 2)) rfl rfl (ix2 e (0 : Fin 1))
    (fun b hb => by
      match b with
      | ⟨0, _⟩ => rfl
      | ⟨1, _⟩ => exact absurd rfl hb)
    rfl]
  exact broadcastInDim_apply _ _ _ _ (ix1 e) (fun a => by match a with | ⟨0, _⟩ => rfl)

theorem scatterAdd_adj (x1 x2 : IVec S320000 32) (x3 : S320000.Idx → EReal)
    (src dst : Fin 320000 → Fin 10000) (val : Fin 320000 → ℝ)
    (hsrc : ∀ e, (x1 (ix1 e)).toInt = ((src e).val : ℤ)) (hdst : ∀ e, (x2 (ix1 e)).toInt = ((dst e).val : ℤ))
    (hval : ∀ e, x3 (ix1 e) = ((val e : ℝ) : EReal)) (i j : Fin 10240) :
    Host.scatterAdd (F := Ideal) (φ := .f32) scatter_S10240x10240_S320000x2_S320000_n_01_01_1
        (broadcastInDim S10240x10240 ![] Facts₀.bcast_S_S10240x10240 (constant (F := Ideal) S_ .f32 0x00000000#32))
        (idxPairs x1 x2) x3 (ix2 i j) = ((Cert.Spec.adj (P := 10240) src dst val i j : ℝ) : EReal) := by
  rw [show scatter_S10240x10240_S320000x2_S320000_n_01_01_1 = pointScatterDims 10240 10240 320000 Facts₀.scatter_S10240x10240_S320000x2_S320000_n_01_01_1_wf from rfl]
  show Ideal.hostScatterAdd _ _ _ _ _ = _
  rw [pointScatterAdd_apply]
  have hz : broadcastInDim S10240x10240 ![] Facts₀.bcast_S_S10240x10240 (constant (F := Ideal) S_ .f32 0x00000000#32) (ix2 i j)
      = (0 : EReal) := by
    show Ideal.ofBits .f32 0x00000000#32 = 0
    exact Ideal.ofBits_zero_f32
  rw [hz, zero_add]
  unfold Cert.Spec.adj
  rw [Cert.Spec.coe_sum]
  refine Finset.sum_congr rfl (fun e _ => ?_)
  rw [idxPairs_apply0, idxPairs_apply1, wrap_apply _ _ (by rw [hdst]; omega), wrap_apply _ _ (by rw [hsrc]; omega),
    hdst, hsrc, hval]
  by_cases h : (dst e).val = i.val ∧ (src e).val = j.val
  · rw [if_pos h, if_pos ⟨by exact_mod_cast h.1, by exact_mod_cast h.2⟩]
  · rw [if_neg h, if_neg (fun h' => h ⟨by exact_mod_cast h'.1, by exact_mod_cast h'.2⟩)]
    rfl

set_option maxHeartbeats 4000000 in

theorem v14_eq :
    (W1v m c main_call0_v14 : S10240x10240.Idx → EReal) =
      Host.scatterAdd (F := Ideal) (φ := .f32) scatter_S10240x10240_S320000x2_S320000_n_01_01_1
        (broadcastInDim S10240x10240 ![] Facts₀.bcast_S_S10240x10240 (constant (F := Ideal) S_ .f32 0x00000000#32))
        (idxPairs (m ((c : Thread nD τ).loc main_arg1) : S320000.Idx → BitVec 32) (m ((c : Thread nD τ).loc main_arg2) : S320000.Idx → BitVec 32))
        (m ((c : Thread nD τ).loc main_arg3) : S320000.Idx → EReal) := by
  show StableHlo.after (hostOps0 (F := Ideal)) (fun b => m (c, b)) (Proc.devRef .tc main_call0_v14) = _
  after_results
  rfl

end Adj

theorem host_adj
    (R : Cert.Inputs.RealInputs (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))) (i j : Fin 10240) :
    (W1v m c main_call0_v14 : S10240x10240.Idx → EReal) (ValueIdx.ix2 i j)
      = ((Cert.Spec.adj (P := 10240) R.src R.dst R.val i j : ℝ) : EReal) := by
  rw [Adj.v14_eq]
  exact Adj.scatterAdd_adj _ _ _ R.src R.dst R.val R.hsrc R.hdst R.hval i j

end Cert.HostVal

end
-- ==== Proof.HostPad.lean ====
import proofs.«421758_j64261300683140_3_alg».proof.Proof.Gen.KernelIdeal.Launch
import proofs.«421758_j64261300683140_3_alg».proof.Proof.Spec
import proofs.«421758_j64261300683140_3_alg».proof.Proof.Inputs
import proofs.«421758_j64261300683140_3_alg».proof.Proof.LibScatterSet
import Idealize.ShloMosaic.Lib.ValueIdx
import Idealize.ShloMosaic.Lib.StableHlo.Run
import Idealize.ShloMosaic.PureOps.Ideal.Laws
import Mathlib.Data.EReal.Basic

set_option maxRecDepth 16384

noncomputable section

namespace Cert.HostVal

open Cert.KernelIdeal Cert.KernelIdeal.Gen Idealize.ShloMosaic
open Idealize.ShloMosaic.TcCoe Idealize.ShloMosaic.ValueIdx Idealize.ShloMosaic.StableHlo Idealize.SL.Sem

theorem ofBuf_toBuf {T : BufTy} (x : TRef sig T) (v : T.Contents (Elt Ideal)) : x.ofBuf (x.toBuf v) = v := by
  obtain ⟨r, h, a, b⟩ := x; subst h; rfl

theorem toBuf_v17 (X : (⟨S10240x256, .f32⟩ : BufTy).Contents (Elt Ideal)) :
    ((TRef.of main_call0_v17 : TRef sig ⟨S10240x256, .f32⟩).toBuf X : S10240x256.Idx → EReal) = X := rfl

theorem ofBuf_arg0 (Y : main_arg0.ty.Contents (Elt Ideal)) :
    ((TRef.of main_arg0 : TRef sig ⟨S10000x256, .f32⟩).ofBuf Y : S10000x256.Idx → EReal) = Y := rfl

abbrev fpd := scatter_S10240x256_S1_S10000x256_01_n_0_0

-- With every start index 0, an update row lands on the row of the same number, column for column.
theorem fp_resultIdx_iff {w : Nat} (idx : IVec S1 w) (hidx : ∀ b, (idx b).toInt = 0) (j' : S10000x256.Idx) (n : Fin 10240) (q : Fin 256) :
    fpd.resultIdx? j' idx = some (ix2 n q) ↔ (j' 0).val = n.val ∧ (j' 1).val = q.val := by
  rw [Cert.ScatterSet.resultIdx?_eq_some_iff, Fin.forall_fin_two, show fpd.start j' idx 0 = 0 from hidx _, show fpd.start j' idx 1 = 0 from rfl,
    show fpd.window j' 0 = (j' 0).val from rfl, show fpd.window j' 1 = (j' 1).val from rfl]
  show (0 : Int) + ((j' 0).val : Int) = (n.val : Int) ∧ (0 : Int) + ((j' 1).val : Int) = (q.val : Int) ↔ _
  omega

theorem host_featpad (m : (ℓ : Loc nD τ sig) → Buf (Elt Ideal) ℓ) (c : Dev nD)
    (R : Cert.Inputs.RealInputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (j : Fin 10240) (q : Fin 256) :
    (StableHlo.after (hostOps0 (F := Ideal)) (fun b => m (c, b)) (Proc.devRef .tc main_call0_v17) : S10240x256.Idx → EReal) (ValueIdx.ix2 j q)
      = ((Cert.Spec.pad (P := 10240) R.feat j q : ℝ) : EReal) := by
  have hidx : ∀ b, ((broadcastInDim S1 ![] bcast_S_S1 (constantI S_ 32 0#32) : IVec S1 32) b).toInt = 0 := fun b => rfl
  have e : (StableHlo.after (hostOps0 (F := Ideal)) (fun b => m (c, b)) (Proc.devRef .tc main_call0_v17) : S10240x256.Idx → EReal)
      = Host.scatter fpd (fun _ b => b)
          (broadcastInDim S10240x256 ![] bcast_S_S10240x256 (constant (F := Ideal) S_ .f32 0x00000000#32))
          (broadcastInDim S1 ![] bcast_S_S1 (constantI S_ 32 0#32))
          (m ((c : Thread nD τ).loc main_arg0)) := by
    show StableHlo.after hostOps0 _ (Proc.devRef .tc main_call0_v17) = _
    after_results
    simp only [ofBuf_toBuf]
    exact (toBuf_v17 _).trans (congrArg _ (ofBuf_arg0 _))
  rw [e]; unfold Cert.Spec.pad
  by_cases hj : j.val < 10000
  · rw [dif_pos hj, Cert.ScatterSet.scatter_set_hit _ _ _ _ (ix2 j q) (ix2 (⟨j.val, hj⟩ : Fin 10000) q) ((fp_resultIdx_iff _ hidx _ _ _).2 ⟨rfl, rfl⟩)
      (fun j' hj' => by
        obtain ⟨e0, e1⟩ := (fp_resultIdx_iff _ hidx _ _ _).1 hj'
        exact (eq_ix2 j').trans (congrArg₂ (fun (a : Fin 10000) (b : Fin 256) => ix2 a b) (Fin.ext e0) (Fin.ext e1))), R.hfeat]
  · rw [dif_neg hj, Cert.ScatterSet.scatter_set_miss _ _ _ _ (ix2 j q) (fun j' hj' => by
        have e0 := ((fp_resultIdx_iff _ hidx _ _ _).1 hj').1
        have h10 : (j' 0).val < 10000 := (j' 0).isLt
        omega)]
    exact Ideal.ofBits_zero_f32.trans EReal.coe_zero.symm

end Cert.HostVal

end
-- ==== Proof.KerValue.lean ====
import proofs.«421758_j64261300683140_3_alg».proof.Proof.Run
import proofs.«421758_j64261300683140_3_alg».proof.Proof.KerVal0
import proofs.«421758_j64261300683140_3_alg».proof.Proof.KerVal1
import proofs.«421758_j64261300683140_3_alg».proof.Proof.KerVal2
import proofs.«421758_j64261300683140_3_alg».proof.Proof.HostVal
import proofs.«421758_j64261300683140_3_alg».proof.Proof.HostPad
import proofs.«421758_j64261300683140_3_alg».proof.Proof.Spec
import proofs.«421758_j64261300683140_3_alg».proof.Proof.SpecMath
import proofs.«421758_j64261300683140_3_alg».proof.Proof.Inputs
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

variable (R : Cert.Inputs.RealInputs (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)))

def Hid : Fin 10240 → Fin 256 → ℝ :=
  Cert.Spec.relu (Cert.Spec.mm (Cert.Spec.mm (Cert.Spec.adj (P := 10240) R.src R.dst R.val) (Cert.Spec.pad (P := 10240) R.feat)) R.W0)
def Yhw : Fin 10240 → Fin 128 → ℝ := Cert.Spec.mm (Hid m c R) R.W1

-- Region 0 finds the adjacency, the padded features and the first weight matrix, and leaves the hidden activations.
theorem V2_hid (i : Fin 10240) (k : Fin 256) :
    (V2 m ρ c main_call0_v18 : S10240x256.Idx → EReal) (ix2 i k) = ((Hid m c R i k : ℝ) : EReal) := by
  rw [show V2 m ρ c main_call0_v18 = (dat0 (V1 m ρ) c).arrAt 3 cfg0.N from W2_arr m ρ c 3]
  exact val0 (V1 m ρ) c _ _ _ (Cert.HostVal.host_adj m c R) (Cert.HostVal.host_featpad m c R)
    (fun k q => by rw [show V1 m ρ c main_arg4 = _ from (host_keeps (by decide) _).1]; exact R.hW0 k q) i k

-- Region 1 finds them and the second weight matrix, and leaves their product.
theorem V3_hw (j : Fin 10240) (q : Fin 128) :
    (V3 m ρ c main_call0_v19 : S10240x128.Idx → EReal) (ix2 j q) = ((Yhw m c R j q : ℝ) : EReal) := by
  rw [show V3 m ρ c main_call0_v19 = (dat1 (V2 m ρ) c).arrAt 2 cfg1.N from W3_arr m ρ c 2]
  exact val1 (V2 m ρ) c _ _ (V2_hid m ρ c R)
    (fun k q => by
      rw [show V2 m ρ c main_arg5 = _ from (W2_of_ne m ρ c main_arg5 (by decide)).trans (host_keeps (by decide) _).1]
      exact R.hW1 k q) j q

-- Regions 0 and 1 do not change the adjacency.
theorem V3_adj (i j : Fin 10240) :
    (V3 m ρ c main_call0_v14 : S10240x10240.Idx → EReal) (ix2 i j) = ((Cert.Spec.adj (P := 10240) R.src R.dst R.val i j : ℝ) : EReal) := by
  rw [show V3 m ρ c main_call0_v14 = V1 m ρ c main_call0_v14 from (W3_of_ne m ρ c main_call0_v14 (by decide)).trans
      ((W2_arr m ρ c 0).trans (((dat0 (V1 m ρ) c).arrAt_in 0 rfl _).trans (A_eq0 (V1 m ρ) c 0)))]
  exact Cert.HostVal.host_adj m c R i j

-- Region 2 leaves the adjacency times that product; its rows below 10000 are the two sparse layers.
theorem kernel_value (a : Fin 10000) (q : Fin 128) :
    (W5 m ρ c (Proc.devRef .tc main_v0) : S10000x128.Idx → EReal) (ix2 a q)
      = ((Cert.Spec.gcn R.src R.dst R.val R.feat R.W0 R.W1 a q : ℝ) : EReal) := by
  rw [W5_main_v0 m ρ c, extractStridedSlice_apply (![0, 0] : Fin 2 → Nat) _ slices_S10240x128_S10000x128_0_0 (ix2 a q)
    (ix2 (⟨a.val, by omega⟩ : Fin 10240) q) (fun ax => by
      match ax with
      | ⟨0, _⟩ => simp [ix2]
      | ⟨1, _⟩ => simp [ix2]),
    val2 (V3 m ρ) c _ _ (V3_adj m ρ c R) (V3_hw m ρ c R) ⟨a.val, by omega⟩ q]
  exact congrArg (fun x : ℝ => (x : EReal))
    (Cert.Spec.dense_eq_gcn (P := 10240) (by omega : 10000 ≤ 10240) R.src R.dst R.val R.feat R.W0 R.W1 a q)

end Cert.KernelIdeal.Hand

end
-- ==== Proof.LibRowGather.lean ====
import Idealize.ShloMosaic.Lib.ValueIdx

noncomputable section

namespace Idealize.ShloMosaic.ValueIdx

section RowGather
variable {α : Type}

abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

def gatherRow {N R w : Nat} (hN : 0 < N) (idx : IVec ⟨2, ![R, 1]⟩ w) (r : Fin R) : Fin N :=
  ⟨min (idx (ix2 r (0 : Fin 1))).toInt.toNat (N - 1), by omega⟩

theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.LibRowScatterAdd.lean ====
import proofs.«421758_j64261300683140_3_alg».proof.Proof.LibScatterSet
import Idealize.ShloMosaic.Lib.ValueIdx
import Idealize.ShloMosaic.PureOps.Ideal.Laws

noncomputable section

namespace Idealize.ShloMosaic.ValueIdx

abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)
  (idx : IVec ⟨2, ![R, 1]⟩ w)

theorem rs_start0 (r : Fin R) (q' : Fin C) :
    (rowScatterDims N R C wf).start (ix2 r q') idx 0 = (idx (ix2 r (0 : Fin 1))).toInt := by
  unfold ScatterDims.start
  rw [dif_pos (List.mem_singleton.mpr rfl)]
  congr 2
  funext b
  match b with
  | ⟨0, _⟩ => rfl
  | ⟨1, _⟩ => rfl

/-- Row `r` of the updates lands on row `n` exactly when its index word is `n`, column for column. -/
theorem rowScatter_resultIdx_iff (r : Fin R) (q' : Fin C) (n : Fin N) (q : Fin C) :
    (rowScatterDims N R C wf).resultIdx? (ix2 r q') idx = some (ix2 n q)
      ↔ q' = q ∧ (idx (ix2 r (0 : Fin 1))).toInt = (n.val : Int) := by
  rw [Cert.ScatterSet.resultIdx?_eq_some_iff, Fin.forall_fin_two, rs_start0, Fin.ext_iff]
  show _ + ((0 : Nat) : Int) = (n.val : Int) ∧ (0 : Int) + ((q'.val : Nat) : Int) = (q.val : Int) ↔ _
  omega

theorem rowScatterAdd_apply (x : (⟨2, ![N, C]⟩ : Shape).Idx → EReal)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  rw [Finset.sum_filter, sum_idx2]
  simp only [rowScatter_resultIdx_iff, ite_and, Finset.sum_ite_eq', Finset.mem_univ, if_true]

end Idealize.ShloMosaic.ValueIdx

end
-- ==== Proof.RefVal.lean ====
import proofs.«421758_j64261300683140_3_alg».proof.Proof.Gen.ReferenceIdeal.Read
import proofs.«421758_j64261300683140_3_alg».proof.Proof.Spec
import proofs.«421758_j64261300683140_3_alg».proof.Proof.SpecMath
import proofs.«421758_j64261300683140_3_alg».proof.Proof.Inputs
import proofs.«421758_j64261300683140_3_alg».proof.Proof.LibRowGather
import proofs.«421758_j64261300683140_3_alg».proof.Proof.LibRowScatterAdd
import Idealize.ShloMosaic.Lib.ValueIdx
import Idealize.ShloMosaic.Lib.Pipeline.Value
import Idealize.ShloMosaic.PureOps.Ideal.Laws

noncomputable section

namespace Cert.RefVal

open Cert.ReferenceIdeal Cert.ReferenceIdeal.Gen Idealize.ShloMosaic Idealize.ShloMosaic.ValueIdx Cert.Spec

/-- A contraction of two real arrays, read through index maps that name row `i` and column `q`, is the real product's entry. -/
theorem dot_coe {n K m : ℕ} {a : (⟨2, ![n, K]⟩ : Shape).Idx → EReal} {b : (⟨2, ![K, m]⟩ : Shape).Idx → EReal}
    {f : Fin n → Fin K → ℝ} {g : Fin K → Fin m → ℝ} (ha : ∀ i k, a (ix2 i k) = (f i k : EReal))
    (hb : ∀ k q, b (ix2 k q) = (g k q : EReal)) (l : Fin K → (⟨2, ![n, K]⟩ : Shape).Idx)
    (r : Fin K → (⟨2, ![K, m]⟩ : Shape).Idx) (i : Fin n) (q : Fin m) (hl : ∀ k, l k = ix2 i k) (hr : ∀ k, r k = ix2 k q) :
    ∑ k, a (l k) * b (r k) = ((mm f g i q : ℝ) : EReal) := by
  rw [mm, coe_sum]
  exact Finset.sum_congr rfl fun k _ => by rw [hl, hr, ha, hb, EReal.coe_mul]

variable {x0 : (⟨S10000x256, .f32⟩ : BufTy).Contents (Elt Ideal)} {x1 x2 : (⟨S320000, .i32⟩ : BufTy).Contents (Elt Ideal)}
  {x3 : (⟨S320000, .f32⟩ : BufTy).Contents (Elt Ideal)} {x4 : (⟨S256x256, .f32⟩ : BufTy).Contents (Elt Ideal)}
  {x5 : (⟨S256x128, .f32⟩ : BufTy).Contents (Elt Ideal)}

theorem v11_apply (e : Fin 320000) : Read.val_main_v11 (F := Ideal) x2 (ix2 e (0 : Fin 1)) = x2 (ix1 e) :=
  (Read.val_main_v11_apply x2 _).trans (congrArg x2 (eq_ix1 _))

theorem v8_apply (e : Fin 320000) (q : Fin 256) : Read.val_main_v8 (F := Ideal) x3 (ix2 e q) = x3 (ix1 e) :=
  ((Read.val_main_v8_apply x3 _).trans (Read.val_main_v0_apply x3 _)).trans (congrArg x3 (eq_ix1 _))

theorem v10_apply (j : S10000x256.Idx) : Read.val_main_v10 (F := Ideal) j = 0 := by
  rw [Read.val_main_v10_apply, Read.val_main_cst_apply]
  exact Ideal.ofBits_zero_f32

theorem gather_eq : gather_S10000x256_S320000x1_S320000x256_1_0_n_n_0_1_1256 = rowGatherDims 10000 320000 256 Gen.gather_S10000x256_S320000x1_S320000x256_1_0_n_n_0_1_1256_wf := rfl

/-- One aggregation step: the rows of `h` named by the sources, scaled by the edge values, added onto the destination rows. -/
def agg (x1 x2 : (⟨S320000, .i32⟩ : BufTy).Contents (Elt Ideal)) (x3 : (⟨S320000, .f32⟩ : BufTy).Contents (Elt Ideal))
    (h : (⟨S10000x256, .f32⟩ : BufTy).Contents (Elt Ideal)) : (⟨S10000x256, .f32⟩ : BufTy).Contents (Elt Ideal) :=
  Host.scatterAdd (F := Ideal) (φ := .f32) scatter_S10000x256_S320000x1_S320000x256_1_0_0_1 (Read.val_main_v10 (F := Ideal)) (Read.val_main_v11 (F := Ideal) x2)
    (mulf (F := Ideal) (φ := .f32) (Read.val_main_v8 (F := Ideal) x3) (Host.gather gather_S10000x256_S320000x1_S320000x256_1_0_n_n_0_1_1256 h (Read.val_main_v6 (F := Ideal) x1)))

theorem v12_eq : Read.val_main_v12 (F := Ideal) x0 x1 x2 x3 = agg x1 x2 x3 x0 := rfl

theorem v27_eq : Read.val_main_v27 (F := Ideal) x0 x1 x2 x3 x4 = agg x1 x2 x3 (Read.val_main_v14 (F := Ideal) x0 x1 x2 x3 x4) := rfl

variable (R : Cert.Inputs.RealInputs x0 x1 x2 x3 x4 x5)
include R

theorem v6_apply (e : Fin 320000) : Read.val_main_v6 (F := Ideal) x1 (ix2 e (0 : Fin 1)) = x1 (ix1 e) := by
  rw [Read.val_main_v6_apply, show Read.idx_main_v6 (ix2 e (0 : Fin 1)) = ix1 e from eq_ix1 _, Read.val_main_v5_apply,
    Read.val_main_v2_apply, Read.val_main_v1_apply, Read.val_main_c_apply]
  refine Cert.Inputs.select_slt_zero _ ?_
  rw [R.hsrc]
  exact Int.natCast_nonneg _

theorem rows_apply (h : (⟨S10000x256, .f32⟩ : BufTy).Contents (Elt Ideal)) (e : Fin 320000) (q : Fin 256) :
    Host.gather gather_S10000x256_S320000x1_S320000x256_1_0_n_n_0_1_1256 h (Read.val_main_v6 (F := Ideal) x1) (ix2 e q) = h (ix2 (R.src e) q) := by
  have hrow : gatherRow (N := 10000) (by decide) (Read.val_main_v6 (F := Ideal) x1) e = R.src e := by
    refine Fin.ext ?_
    show min (Read.val_main_v6 (F := Ideal) x1 (ix2 e (0 : Fin 1))).toInt.toNat (10000 - 1) = (R.src e).val
    rw [v6_apply R, R.hsrc]
    have := (R.src e).isLt
    omega
  rw [gather_eq, rowGather_apply (by decide), hrow]

/-- On real data one aggregation step is the sparse product with the adjacency. -/
theorem agg_apply (h : (⟨S10000x256, .f32⟩ : BufTy).Contents (Elt Ideal)) (f : Fin 10000 → Fin 256 → ℝ)
    (hf : ∀ (i : Fin 10000) (q : Fin 256), h (ix2 i q) = ((f i q : ℝ) : EReal)) (n : Fin 10000) (q : Fin 256) :
    agg x1 x2 x3 h (ix2 n q) = ((spmm R.src R.dst R.val f n q : ℝ) : EReal) := by
  show Ideal.hostScatterAdd (rowScatterDims 10000 320000 256 Gen.scatter_S10000x256_S320000x1_S320000x256_1_0_0_1_wf) _ _ _ (ix2 n q) = _
  rw [rowScatterAdd_apply, v10_apply, zero_add, spmm, coe_sum]
  refine Finset.sum_congr rfl fun r _ => ?_
  rw [v11_apply, R.hdst, mulf_apply, v8_apply, rows_apply R, R.hval, hf, ← EReal.coe_mul]
  by_cases hd : R.dst r = n
  · rw [if_pos hd, if_pos (by rw [hd])]
  · rw [if_neg hd, if_neg (fun hh => hd (Fin.ext (Int.ofNat_inj.mp hh))), EReal.coe_zero]

theorem layer1_apply (i : Fin 10000) (q : Fin 256) :
    Read.val_main_v14 (F := Ideal) x0 x1 x2 x3 x4 (ix2 i q)
      = ((relu (mm (spmm R.src R.dst R.val R.feat) R.W0) i q : ℝ) : EReal) := by
  rw [Read.val_main_v14_apply, Ideal.maximumf_def, Read.val_main_v13_apply, v12_eq,
    dot_coe (agg_apply R x0 R.feat R.hfeat) R.hW0 (Read.lidx_main_v13 (ix2 i q)) (Read.ridx_main_v13 (ix2 i q)) i q
      (fun _ => eq_ix2 _) (fun _ => eq_ix2 _),
    Read.val_main_call0_v0_apply, Read.val_main_call0_cst_apply, Ideal.ofBits_def, Ideal.ofBits_zero_f32,
    ← EReal.coe_zero, ← coe_max]
  rfl

variable (x0 x1 x2 x3 x4 x5)

theorem ref_value (i : Fin 10000) (q : Fin 128) :
    Cert.ReferenceIdeal.Read.val_main_v28 (F := Ideal) x0 x1 x2 x3 x4 x5 (ValueIdx.ix2 i q) = ((Cert.Spec.gcn R.src R.dst R.val R.feat R.W0 R.W1 i q : ℝ) : EReal) := by
  rw [Read.val_main_v28_apply, v27_eq]
  exact dot_coe (agg_apply R _ _ (layer1_apply R)) R.hW1 (Read.lidx_main_v28 (ix2 i q)) (Read.ridx_main_v28 (ix2 i q)) i q
    (fun _ => eq_ix2 _) (fun _ => eq_ix2 _)

end Cert.RefVal

end
-- ==== Proof.PreFacts.lean ====
import proofs.«421758_j64261300683140_3_alg».proof.Pre_finite_inputs
import proofs.«421758_j64261300683140_3_alg».proof.Proof.Gen.Pre_finite_inputs
import proofs.«421758_j64261300683140_3_alg».proof.Proof.Inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx Cert.Pre_finite_inputs

theorem inf_bits : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

theorem real_of_all {s : Shape} {axes : List (Fin s.rank)} (x : FVec Ideal s .f32)
    (hb : S_.BroadcastsInDim s (![] : Fin 0 → Fin s.rank)) (hr : s.ReducesTo axes S_) (h0 : 0 < S_.numel) (c : IVec S_ 1)
    (h : Host.reduce IntOp.andi (cmpf .olt (Host.absf x) (broadcastInDim s ![] hb (constant S_ .f32 0x7F800000#32))) c hr h0 ix0 = 1#1)
    (i : s.Idx) : ∃ r : ℝ, x i = (r : EReal) := by
  have e := Host.reduce_andi_all _ _ hr h0 ix0 h i
  change Ideal.cmp .olt (max (x i) (-(x i))) (Ideal.ofBits .f32 0x7F800000#32) = 1#1 at e
  rw [inf_bits] at e
  simp only [Ideal.cmp, StableHlo.Predicate.ofBool_eq_one_iff, decide_eq_true_eq] at e
  exact real_of_abs_lt_top _ e

theorem range_of_all (x : IVec S320000 32)
    (hb : S_.BroadcastsInDim S320000 (![] : Fin 0 → Fin S320000.rank)) (hr : S320000.ReducesTo [0] S_) (h0 : 0 < S_.numel) (c : IVec S_ 1)
    (h : Host.reduce IntOp.andi (andi (cmpi .sge x (broadcastInDim S320000 ![] hb (constantI S_ 32 0#32)))
        (cmpi .slt x (broadcastInDim S320000 ![] hb (constantI S_ 32 10000#32)))) c hr h0 ix0 = 1#1)
    (i : S320000.Idx) : 0 ≤ (x i).toInt ∧ (x i).toInt < 10000 := by
  have e := Host.reduce_andi_all _ _ hr h0 ix0 h i
  change IntOp.andi (IntOp.cmpi .sge (x i) 0#32) (IntOp.cmpi .slt (x i) 10000#32) = 1#1 at e
  rw [IntOp.andi_eq_one, IntOp.cmpi_sge, IntOp.cmpi_slt] at e
  exact ⟨by simpa using e.1, by simpa using e.2⟩

theorem andi_apply {s : Shape} {w : Nat} (a b : IVec s w) (i : s.Idx) : andi a b i = IntOp.andi (a i) (b i) := rfl

theorem realInputs_of_pre [Cert.Pre_finite_inputs.Facts]
    (x0 : FVec Ideal S10000x256 .f32) (x1 x2 : IVec S320000 32) (x3 : FVec Ideal S320000 .f32)
    (x4 : FVec Ideal S256x256 .f32) (x5 : FVec Ideal S256x128 .f32)
    (h : Cert.Pre_finite_inputs.fn (F := Ideal) x0 x1 x2 x3 x4 x5 = fun _ => 1#1) :
    Nonempty (Cert.Inputs.RealInputs x0 x1 x2 x3 x4 x5) := by
  have e := congrFun h ix0
  dsimp only [Cert.Pre_finite_inputs.fn, Cert.Pre_finite_inputs.fn_part1] at e
  simp only [andi_apply, IntOp.andi_eq_one] at e
  obtain ⟨⟨⟨⟨⟨e0, e3⟩, e4⟩, e5⟩, e1⟩, e2⟩ := e
  choose feat hfeat using fun i q => real_of_all x0 _ _ _ _ e0 (ix2 i q)
  choose val hval using fun e => real_of_all x3 _ _ _ _ e3 (ix1 e)
  choose W0 hW0 using fun k q => real_of_all x4 _ _ _ _ e4 (ix2 k q)
  choose W1 hW1 using fun k q => real_of_all x5 _ _ _ _ e5 (ix2 k q)
  have h1 := range_of_all x1 _ _ _ _ e1
  have h2 := range_of_all x2 _ _ _ _ e2
  exact ⟨⟨feat, val, W0, W1, fun e => ⟨(x1 (ix1 e)).toInt.toNat, by have := h1 (ix1 e); omega⟩,
    fun e => ⟨(x2 (ix1 e)).toInt.toNat, by have := h2 (ix1 e); omega⟩, hfeat, hval, hW0, hW1,
    fun e => (Int.toNat_of_nonneg (h1 (ix1 e)).1).symm, fun e => (Int.toNat_of_nonneg (h2 (ix1 e)).1).symm⟩⟩

end Cert.PreFacts

end
-- ==== Proof.lean ====
import proofs.«421758_j64261300683140_3_alg».proof.Defs
import proofs.«421758_j64261300683140_3_alg».proof.Proof.Gen.Kernel
import proofs.«421758_j64261300683140_3_alg».proof.Proof.Gen.KernelIdeal
import proofs.«421758_j64261300683140_3_alg».proof.Proof.Gen.ReferenceIdeal
import proofs.«421758_j64261300683140_3_alg».proof.Proof.Gen.Pre_finite_inputs
import proofs.«421758_j64261300683140_3_alg».proof.Proof.RefImports
import proofs.«421758_j64261300683140_3_alg».proof.Proof.KRun
import proofs.«421758_j64261300683140_3_alg».proof.Proof.Run
import proofs.«421758_j64261300683140_3_alg».proof.Proof.KerValue
import proofs.«421758_j64261300683140_3_alg».proof.Proof.RefVal
import proofs.«421758_j64261300683140_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ =>
  (θ_run Cert.Kernel.defs _ _).mono (fun _ h c => (h c).2) (Cert.Kernel.Hand.run_frame (F := Bits) m ρ)

theorem frame_ki : Cert.frame_KernelIdeal := fun m ρ _ =>
  (θ_run Cert.KernelIdeal.defs _ _).mono (fun _ h c => (h c).2) (Cert.KernelIdeal.Hand.run_frame (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := by
  refine ⟨?_, ?_, ?_, ?_, ?_, ?_, ?_, ?_⟩ <;> exact IdealRules.truncf_extf.statement _ .f32 .bf16

theorem algebraic : Cert.algebraic_KernelIdeal_ReferenceIdeal := by
  intro m ρ m' ρ' hpre hagree
  refine ⟨fun c => Cert.KernelIdeal.Hand.W5 m ρ c (Proc.devRef .tc Cert.KernelIdeal.main_v0), Cert.KernelIdeal.Hand.run_frame (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨R⟩ := Cert.PreFacts.realInputs_of_pre _ _ _ _ _ _ (hpre c)
  rw [Cert.ReferenceIdeal.Read.val_main_v28_eq, (hagree c).1, (hagree c).2.1, (hagree c).2.2.1, (hagree c).2.2.2.1,
    (hagree c).2.2.2.2.1, (hagree c).2.2.2.2.2]
  funext i
  obtain ⟨a, q, rfl⟩ : ∃ (a : Fin 10000) (q : Fin 128), i = ix2 a q := ⟨i 0, i 1, eq_ix2 i⟩
  rw [Cert.RefVal.ref_value _ _ _ _ _ _ R a q]
  exact (Cert.KernelIdeal.Hand.kernel_value m ρ c R a q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
